-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x2048 .f32) (main_arg6 : FVec F S2048x2048 .f32) (main_arg7 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S2048x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x2048 : Shape := ⟨2, ![2048, 2048]⟩
abbrev S4096 : Shape := ⟨1, ![4096]⟩
abbrev S512x2048 : Shape := ⟨2, ![512, 2048]⟩
abbrev S4096x1 : Shape := ⟨2, ![4096, 1]⟩
abbrev S1024x2048 : Shape := ⟨2, ![1024, 2048]⟩
abbrev S1024x1 : Shape := ⟨2, ![1024, 1]⟩
abbrev S1024x512 : Shape := ⟨2, ![1024, 512]⟩
abbrev S1024 : Shape := ⟨1, ![1024]⟩

abbrev nBuf : Space → Nat
  | .hbm => 32
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4096, .i32⟩
  | .hbm, ⟨9, _⟩ => ⟨S4096x2048, .bf16⟩
  | .hbm, ⟨10, _⟩ => ⟨S4096x2048, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S4096x1, .i32⟩
  | .hbm, ⟨30, _⟩ => ⟨S4096x2048, .f32⟩
  | .hbm, ⟨31, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S2048x2048, .bf16⟩
  | .local _ .vmem, ⟨14, _⟩ => ⟨S2048x2048, .bf16⟩
  | .local _ .vmem, ⟨15, _⟩ => ⟨S2048x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1024x2048, .f32⟩
  | .local _ .vmem, ⟨23, _⟩ => ⟨S1024x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | .local _ .vmem, ⟨28, _⟩ => ⟨S1024x1, .i32⟩
  | .local _ .vmem, ⟨29, _⟩ => ⟨S1024x1, .i32⟩
  | .local _ .vmem, ⟨30, _⟩ => ⟨S1024x2048, .f32⟩
  | .local _ .vmem, ⟨31, _⟩ => ⟨S1024x2048, .f32⟩
  | .local _ .vmem, ⟨32, _⟩ => ⟨S1024x1, .f32⟩
  | .local _ .vmem, ⟨33, _⟩ => ⟨S1024x1, .f32⟩
  | .local _ .vmem, ⟨34, _⟩ => ⟨S1024x2048, .f32⟩
  | .local _ .vmem, ⟨35, _⟩ => ⟨S1024x2048, .f32⟩
  | .local _ .vmem, ⟨36, _⟩ => ⟨S1024x2048, .f32⟩
  | .local _ .vmem, ⟨37, _⟩ => ⟨S512x2048, .f32⟩
  | .local _ .vmem, ⟨38, _⟩ => ⟨S512x2048, .f32⟩
  | .local _ .vmem, ⟨39, _⟩ => ⟨S512x2048, .bf16⟩
  | .local _ .vmem, ⟨40, _⟩ => ⟨S512x2048, .bf16⟩
  | .local _ .vmem, ⟨41, _⟩ => ⟨S1024x1, .i32⟩
  | .local _ .vmem, ⟨42, _⟩ => ⟨S1024x1, .i32⟩
  | .local _ .vmem, ⟨43, _⟩ => ⟨S1024x2048, .f32⟩
  | .local _ .vmem, ⟨44, _⟩ => ⟨S1024x2048, .f32⟩
  | .local _ .vmem, ⟨45, _⟩ => ⟨S1024x1, .f32⟩
  | .local _ .vmem, ⟨46, _⟩ => ⟨S1024x1, .f32⟩
  | .local _ .vmem, ⟨47, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_scratch0 : Ref sig .tc := ⟨.vmem, 45, rfl⟩
abbrev cc3_scratch1 : Ref sig .tc := ⟨.vmem, 46, rfl⟩
abbrev cc3_scratch2 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_26 : BitVec 32 := 0#32
  let v52 : BitVec 1 := Scalar.cmpi .ne v51 c0_i32_26
  v52

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_26 : BitVec 32 := 0#32
  let v52 : BitVec 1 := Scalar.cmpi .ne v51 c0_i32_26
  v52

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bitsLt_bf16_f32 : FTy.bits .bf16 < FTy.bits .f32
  transposes_S2048x2048_S2048x2048_1_0 : S2048x2048.Transposes [1, 0] S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x512_d1_w32 : S1024x512.Iotas .tc 32 [1]
  broadcasts_S1024x1_S1024x512 : S1024x1.Broadcasts S1024x512
  reduces_S1024x512_S1024 : S1024x512.Reduces [1] S1024
  shapeCasts_S1024_S1024x1 : S1024.ShapeCasts S1024x1
  broadcasts_S1024x1_S1024x2048 : S1024x1.Broadcasts S1024x2048
  dot_S512x2048_S2048x2048_S512x2048_1_0_0_1_n_n_wf : DotDims.WF S512x2048 S2048x2048 S512x2048 [1] [0] [0] [1] [] []
  dot_S1024x2048_S512x2048_S1024x512_1_1_0_0_n_n_wf : DotDims.WF S1024x2048 S512x2048 S1024x512 [1] [1] [0] [0] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x2048.size a
  hwx0_6 : ∀ i : grid0.Coords, EltTy.bits .bf16 = 32 ∨ (Rect.block (s := S4096x2048) S512x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S4096x2048.size a
  hwx1_4 : ∀ i : grid1.Coords, EltTy.bits .f32 = 32 ∨ (Rect.block (s := S4096x2048) S512x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S4096x2048.size a
  hwx1_5 : ∀ i : grid1.Coords, EltTy.bits .f32 = 32 ∨ (Rect.block (s := S4096x2048) S512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S4096x2048.size a
  hwx1_6 : ∀ i : grid1.Coords, EltTy.bits .bf16 = 32 ∨ (Rect.block (s := S4096x2048) S512x2048.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .f32 = 32 ∨ (Rect.block (s := S4096x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x2048.size a
  hwx2_1 : ∀ i : grid2.Coords, EltTy.bits .f32 = 32 ∨ (Rect.block (s := S4096x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x2048.size a
  hwx2_2 : ∀ i : grid2.Coords, EltTy.bits .bf16 = 32 ∨ (Rect.block (s := S4096x2048) S512x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .i32 = 32 ∨ (Rect.block (s := S4096x1) S1024x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S4096x2048.size a
  hwx2_4 : ∀ i : grid2.Coords, EltTy.bits .f32 = 32 ∨ (Rect.block (s := S4096x2048) S1024x2048.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S4096x2048.size a
  hwx3_0 : ∀ i : grid3.Coords, EltTy.bits .f32 = 32 ∨ (Rect.block (s := S4096x2048) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S4096x2048.size a
  hwx3_1 : ∀ i : grid3.Coords, EltTy.bits .f32 = 32 ∨ (Rect.block (s := S4096x2048) S512x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S4096x2048.size a
  hwx3_2 : ∀ i : grid3.Coords, EltTy.bits .bf16 = 32 ∨ (Rect.block (s := S4096x2048) S512x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .i32 = 32 ∨ (Rect.block (s := S4096x1) S1024x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x2048.size a ≤ S4096x2048.size a
  hwx3_4 : ∀ i : grid3.Coords, EltTy.bits .f32 = 32 ∨ (Rect.block (s := S4096x2048) S1024x2048.size (cc3_transform_4 i) (hinb3_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S512x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S512x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_2) S512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15_0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_1) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14_2) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1024x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v14_0) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15_2) S512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1024x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2048x4096 : Shape := ⟨2, ![2048, 4096]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4096, .i32⟩
  | .hbm, ⟨9, _⟩ => ⟨S2048x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S2048x2048, .f32⟩
  | .hbm, ⟨14, _⟩ => ⟨S4096x2048, .f32⟩
  | .hbm, ⟨15, _⟩ => ⟨S2048x2048, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S2048x2048, .f32⟩
  | .hbm, ⟨20, _⟩ => ⟨S4096x2048, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S2048x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S2048x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096x1, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x4096, .f32⟩
  | .hbm, ⟨66, _⟩ => ⟨S4096x4096, .f32⟩
  | .hbm, ⟨67, _⟩ => ⟨S4096x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KI.ProjRegion0.lean ====
import proofs.«404947_j13649406066966_2_alg».proof.Proof.Gen.KernelIdeal.Launch
import proofs.«404947_j13649406066966_2_alg».proof.Proof.Gen.KernelIdeal.Skeleton
import proofs.«404947_j13649406066966_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x2048 := Rect.unit (s := S512x2048) ![0, 0] S512x2048.size inb_S512x2048_S512x2048_0_0

abbrev r0_1 : Rect S2048x2048 := Rect.unit (s := S2048x2048) ![0, 0] S2048x2048.size inb_S2048x2048_S2048x2048_0_0

-- A row block's three results: x · W_q and x · W_k in f32, x · W_v rounded to bf16.
def out0_4 (x0 : Vec F S512x2048 .bf16) (x1 : Vec F S2048x2048 .bf16) : Vec F S512x2048 .f32 :=
  View.canon [⟨r0_0, k0_pay2 (View.ld x0 r0_0) (View.ld x1 r0_1)⟩]

def out0_5 (x0 : Vec F S512x2048 .bf16) (x2 : Vec F S2048x2048 .bf16) : Vec F S512x2048 .f32 :=
  View.canon [⟨r0_0, k0_pay3 (View.ld x0 r0_0) (View.ld x2 r0_1)⟩]

def out0_6 (x0 : Vec F S512x2048 .bf16) (x3 : Vec F S2048x2048 .bf16) : Vec F S512x2048 .bf16 :=
  View.canon [⟨r0_0, k0_pay4 (View.ld x0 r0_0) (View.ld x3 r0_1)⟩]

theorem cover0_4 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

theorem cover0_5 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

theorem cover0_6 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
theorem sound_kernel0 (c : Dev nD) (E : Set ℕ) (i : grid0.Coords) (arg1 : Memref sig .tc .vmem S512x2048 .bf16) (harg1 : arg1.IsWhole)
    (arg2 : Memref sig .tc .vmem S2048x2048 .bf16) (harg2 : arg2.IsWhole) (arg3 : Memref sig .tc .vmem S2048x2048 .bf16) (harg3 : arg3.IsWhole)
    (arg4 : Memref sig .tc .vmem S2048x2048 .bf16) (harg4 : arg4.IsWhole) (arg5 : Memref sig .tc .vmem S512x2048 .f32) (harg5 : arg5.IsWhole)
    (arg6 : Memref sig .tc .vmem S512x2048 .f32) (harg6 : arg6.IsWhole) (arg7 : Memref sig .tc .vmem S512x2048 .bf16) (harg7 : arg7.IsWhole)
    (x0 : Vec F S512x2048 .bf16) (x1 x2 x3 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.ProjRegion1.lean ====
import proofs.«404947_j13649406066966_2_alg».proof.Proof.KI.ProjRegion0
import proofs.«404947_j13649406066966_2_alg».proof.Proof.Gen.KernelIdeal.Launch
import proofs.«404947_j13649406066966_2_alg».proof.Proof.Gen.KernelIdeal.Skeleton
import proofs.«404947_j13649406066966_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out0_4 (iblk1 V c 0 t) (iblk1 V c 1 t)
    | ⟨5, _⟩ => out0_5 (iblk1 V c 0 t) (iblk1 V c 2 t)
    | ⟨6, _⟩ => out0_6 (iblk1 V c 0 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out0_4 (iblk1 V c 0 t) (iblk1 V c 1 t) := by dsimp only [dat1]
theorem after1_5 (c : Dev nD) (t : Fin cfg1.N) : (dat1 V c).after 5 t = out0_5 (iblk1 V c 0 t) (iblk1 V c 2 t) := by dsimp only [dat1]
theorem after1_6 (c : Dev nD) (t : Fin cfg1.N) : (dat1 V c).after 6 t = out0_6 (iblk1 V c 0 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show cc1__proj_kernel (F := F) = cc0__proj_kernel from rfl]
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.FlashRuns2.lean ====
import proofs.«404947_j13649406066966_2_alg».proof.Proof.Gen.KernelIdeal.Launch
import proofs.«404947_j13649406066966_2_alg».proof.Proof.Gen.KernelIdeal.Skeleton
import proofs.«404947_j13649406066966_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)

abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x2048 .f32 := Memref.whole cc2_scratch2
abbrev VS2_0 : View sig .tc .vmem S1024x1 .f32 := scM2_0.view
abbrev VS2_1 : View sig .tc .vmem S1024x1 .f32 := scM2_1.view
abbrev VS2_2 : View sig .tc .vmem S1024x2048 .f32 := scM2_2.view

abbrev VO2_4 : View sig .tc .vmem S1024x2048 .f32 := (Memref.whole cc2_stg4_0 : Memref sig .tc .vmem S1024x2048 .f32).view

set_option maxHeartbeats 4000000 in
-- Key block 0: maximum, normaliser and accumulator are reset before the update; nothing is stored to the output.
noncomputable def kernelRun2_A (c : Dev nD) (i : grid2.Coords) (arg2 : Memref sig .tc .vmem S1024x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2048 .f32) (harg9 : arg9.IsWhole) (hc0 : cond2_0 i) (hc1 : ¬cond2_1 i)
    (x0 : Vec F S1024x2048 .f32) (x1 : Vec F S512x2048 .f32) (x2 : Vec F S512x2048 .bf16) (x3 : Vec F S1024x1 .i32) :
    Σ' (L4 : List (View.Piece (Elt F) S1024x2048 .f32)) (LS0 : List (View.Piece (Elt F) S1024x1 .f32)) (LS1 : List (View.Piece (Elt F) S1024x1 .f32)), { LS2 : List (View.Piece (Elt F) S1024x2048 .f32) //
      ∀ (xi4 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__flash_kernel_eq_skeleton]; unfold cc2__flash_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.FlashRunB2.lean ====
import proofs.«404947_j13649406066966_2_alg».proof.Proof.KI.FlashRuns2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
-- Key blocks 1 to 6: the update only.
noncomputable def kernelRun2_B (c : Dev nD) (i : grid2.Coords) (arg2 : Memref sig .tc .vmem S1024x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2048 .f32) (harg9 : arg9.IsWhole) (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    Σ' (L4 : List (View.Piece (Elt F) S1024x2048 .f32)) (LS0 : List (View.Piece (Elt F) S1024x1 .f32)) (LS1 : List (View.Piece (Elt F) S1024x1 .f32)), { LS2 : List (View.Piece (Elt F) S1024x2048 .f32) //
      ∀ (xi4 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__flash_kernel_eq_skeleton]; unfold cc2__flash_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.FlashRunC2.lean ====
import proofs.«404947_j13649406066966_2_alg».proof.Proof.KI.FlashRunB2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
-- Key block 7: the update, then the output block is accumulator · (1 / normaliser).
noncomputable def kernelRun2_C (c : Dev nD) (i : grid2.Coords) (arg2 : Memref sig .tc .vmem S1024x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1024x1 .i32) (harg5 : arg5.IsWhole) (arg6 : Memref sig .tc .vmem S1024x2048 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2048 .f32) (harg9 : arg9.IsWhole) (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    Σ' (L4 : List (View.Piece (Elt F) S1024x2048 .f32)) (LS0 : List (View.Piece (Elt F) S1024x1 .f32)) (LS1 : List (View.Piece (Elt F) S1024x1 .f32)), { LS2 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8 arg9 harg9) K } := by
  refine ⟨?_, ?_, ?_, ?_, fun E K => ?run⟩
  case run =>
    simp only [cc2__flash_kernel_eq_skeleton]; unfold cc2__flash_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.FlashRegion2.lean ====
import proofs.«404947_j13649406066966_2_alg».proof.Proof.KI.FlashRunC2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2]) ∗ (∃ r, prngReg c r)) := by
  unfold Pipeline.ΦA; rw [scopedRest2_split]; simp only [scM2_0, scM2_1, scM2_2, owns_whole]; try rfl

section

variable (c : Dev nD) (i : grid2.Coords) (arg2 : Memref sig .tc .vmem S1024x2048 .f32) (harg2 : arg2.IsWhole) (arg3 : Memref sig .tc .vmem S512x2048 .f32) (harg3 : arg3.IsWhole)
  (arg4 : Memref sig .tc .vmem S512x2048 .bf16) (harg4 : arg4.IsWhole) (arg5 : Memref sig .tc .vmem S1024x1 .i32) (harg5 : arg5.IsWhole) (arg6 : Memref sig .tc .vmem S1024x2048 .f32) (harg6 : arg6.IsWhole)
  (arg7 : Memref sig .tc .vmem S1024x1 .f32) (harg7 : arg7.IsWhole) (arg8 : Memref sig .tc .vmem S1024x1 .f32) (harg8 : arg8.IsWhole) (arg9 : Memref sig .tc .vmem S1024x2048 .f32) (harg9 : arg9.IsWhole)

def out2_A_4 (hc0 : cond2_0 i) (hc1 : ¬cond2_1 i)
    (x0 : Vec F S1024x2048 .f32) (x1 : Vec F S512x2048 .f32) (x2 : Vec F S512x2048 .bf16) (x3 : Vec F S1024x1 .i32) : Vec F S1024x2048 .f32 :=
  VO2_4.read (Elt F) (VO2_4.writes (Elt F) VO2_4.junk (kernelRun2_A c i arg2 harg2 arg3 harg3 arg4 harg4 arg5 harg5 arg6 harg6 arg7 harg7 arg8 harg8 arg9 harg9 hc0 hc1 x0 x1 x2 x3).1)

theorem scover2_A_0 (hc0 : cond2_0 i) (hc1 : ¬cond2_1 i)
    (x0 : Vec F S1024x2048 .f32) (x1 : Vec F S512x2048 .f32) (x2 : Vec F S512x2048 .bf16) (x3 : Vec F S1024x1 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.1 S1024x1.size (by sl_kernel_rfl) y

def sout2_A_0 (hc0 : cond2_0 i) (hc1 : ¬cond2_1 i)
    (x0 : Vec F S1024x2048 .f32) (x1 : Vec F S512x2048 .f32) (x2 : Vec F S512x2048 .bf16) (x3 : Vec F S1024x1 .i32) : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).2.1)

theorem scover2_A_1 (hc0 : cond2_0 i) (hc1 : ¬cond2_1 i)
    (x0 : Vec F S1024x2048 .f32) (x1 : Vec F S512x2048 .f32) (x2 : Vec F S512x2048 .bf16) (x3 : Vec F S1024x1 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.1 S1024x1.size (by sl_kernel_rfl) y

def sout2_A_1 (hc0 : cond2_0 i) (hc1 : ¬cond2_1 i)
    (x0 : Vec F S1024x2048 .f32) (x1 : Vec F S512x2048 .f32) (x2 : Vec F S512x2048 .bf16) (x3 : Vec F S1024x1 .i32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3).2.2.1)

theorem scover2_A_2 (hc0 : cond2_0 i) (hc1 : ¬cond2_1 i)
    (x0 : Vec F S1024x2048 .f32) (x1 : Vec F S512x2048 .f32) (x2 : Vec F S512x2048 .bf16) (x3 : Vec F S1024x1 .i32) (y : S1024x2048.Idx) :
    ∃ pc ∈ (kernelRun2_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.2.1 S1024x2048.size (by sl_kernel_rfl) y

def sout2_A_2 (hc0 : cond2_0 i) (hc1 : ¬cond2_1 i)
    (x0 : Vec F S1024x2048 .f32) (x1 : Vec F S512x2048 .f32) (x2 : Vec F S512x2048 .bf16) (x3 : Vec F S1024x1 .i32) : Vec F S1024x2048 .f32 :=
  VS2_2.read (Elt F) (VS2_2.writes (Elt F) VS2_2.junk (kernelRun2_A c i arg2 harg2 arg3 harg3 arg4 harg4 arg5 harg5 arg6 harg6 arg7 harg7 arg8 harg8 arg9 harg9 hc0 hc1 x0 x1 x2 x3).2.2.2.1)

def out2_B_4 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 :=
  VO2_4.read (Elt F) (VO2_4.writes (Elt F) VO2_4.junk (kernelRun2_B c i arg2 harg2 arg3 harg3 arg4 harg4 arg5 harg5 arg6 harg6 arg7 harg7 arg8 harg8 arg9 harg9 hc0 hc1 x0 x1 x2 x3 xs0 xs1 xs2).1)

theorem scover2_B_0 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout2_B_0 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0 xs1 xs2).2.1)

theorem scover2_B_1 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout2_B_1 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 xs0 xs1 xs2).2.2.1)

theorem scover2_B_2 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x2048.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.2.1 S1024x2048.size (by sl_kernel_rfl) y

def sout2_B_2 (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 :=
  VS2_2.read (Elt F) (VS2_2.writes (Elt F) VS2_2.junk (kernelRun2_B c i arg2 harg2 arg3 harg3 arg4 harg4 arg5 harg5 arg6 harg6 arg7 harg7 arg8 harg8 arg9 harg9 hc0 hc1 x0 x1 x2 x3 xs0 xs1 xs2).2.2.2.1)

def out2_C_4 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 :=
  VO2_4.read (Elt F) (VO2_4.writes (Elt F) VO2_4.junk (kernelRun2_C c i arg2 harg2 arg3 harg3 arg4 harg4 arg5 harg5 arg6 harg6 arg7 harg7 arg8 harg8 arg9 harg9 hc0 hc1 x0 x1 x2 x3 xs0 xs1 xs2).1)

theorem cover2_C_4 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x2048.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).1 S1024x2048.size (by sl_kernel_rfl) y

theorem scover2_C_0 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout2_C_0 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 xs0 xs1 xs2).2.1)

theorem scover2_C_1 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout2_C_1 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 hc0 hc1 x0 x1 x2 x3 xs0 xs1 xs2).2.2.1)

theorem scover2_C_2 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) (y : S1024x2048.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.2.1 S1024x2048.size (by sl_kernel_rfl) y

def sout2_C_2 (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 :=
  VS2_2.read (Elt F) (VS2_2.writes (Elt F) VS2_2.junk (kernelRun2_C c i arg2 harg2 arg3 harg3 arg4 harg4 arg5 harg5 arg6 harg6 arg7 harg7 arg8 harg8 arg9 harg9 hc0 hc1 x0 x1 x2 x3 xs0 xs1 xs2).2.2.2.1)

def outs2_A (hc0 : cond2_0 i) (hc1 : ¬cond2_1 i)
    (x0 : Vec F S1024x2048 .f32) (x1 : Vec F S512x2048 .f32) (x2 : Vec F S512x2048 .bf16) (x3 : Vec F S1024x1 .i32) : Vec F S1024x2048 .f32 × Vec F S1024x1 .f32 × Vec F S1024x1 .f32 × Vec F S1024x2048 .f32 :=
  (out2_A_4 c i arg2 harg2 arg3 harg3 arg4 harg4 arg5 harg5 arg6 harg6 arg7 harg7 arg8 harg8 arg9 harg9 hc0 hc1 x0 x1 x2 x3, sout2_A_0 c i arg2 harg2 arg3 harg3 arg4 harg4 arg5 harg5 arg6 harg6 arg7 harg7 arg8 harg8 arg9 harg9 hc0 hc1 x0 x1 x2 x3, sout2_A_1 c i arg2 harg2 arg3 harg3 arg4 harg4 arg5 harg5 arg6 harg6 arg7 harg7 arg8 harg8 arg9 harg9 hc0 hc1 x0 x1 x2 x3, sout2_A_2 c i arg2 harg2 arg3 harg3 arg4 harg4 arg5 harg5 arg6 harg6 arg7 harg7 arg8 harg8 arg9 harg9 hc0 hc1 x0 x1 x2 x3)

def outs2_B (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 × Vec F S1024x1 .f32 × Vec F S1024x1 .f32 × Vec F S1024x2048 .f32 :=
  (out2_B_4 c i arg2 harg2 arg3 harg3 arg4 harg4 arg5 harg5 arg6 harg6 arg7 harg7 arg8 harg8 arg9 harg9 hc0 hc1 x0 x1 x2 x3 xs0 xs1 xs2, sout2_B_0 c i arg2 harg2 arg3 harg3 arg4 harg4 arg5 harg5 arg6 harg6 arg7 harg7 arg8 harg8 arg9 harg9 hc0 hc1 x0 x1 x2 x3 xs0 xs1 xs2, sout2_B_1 c i arg2 harg2 arg3 harg3 arg4 harg4 arg5 harg5 arg6 harg6 arg7 harg7 arg8 harg8 arg9 harg9 hc0 hc1 x0 x1 x2 x3 xs0 xs1 xs2, sout2_B_2 c i arg2 harg2 arg3 harg3 arg4 harg4 arg5 harg5 arg6 harg6 arg7 harg7 arg8 harg8 arg9 harg9 hc0 hc1 x0 x1 x2 x3 xs0 xs1 xs2)

def outs2_C (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) : Vec F S1024x2048 .f32 × Vec F S1024x1 .f32 × Vec F S1024x1 .f32 × Vec F S1024x2048 .f32 :=
  (out2_C_4 c i arg2 harg2 arg3 harg3 arg4 harg4 arg5 harg5 arg6 harg6 arg7 harg7 arg8 harg8 arg9 harg9 hc0 hc1 x0 x1 x2 x3 xs0 xs1 xs2, sout2_C_0 c i arg2 harg2 arg3 harg3 arg4 harg4 arg5 harg5 arg6 harg6 arg7 harg7 arg8 harg8 arg9 harg9 hc0 hc1 x0 x1 x2 x3 xs0 xs1 xs2, sout2_C_1 c i arg2 harg2 arg3 harg3 arg4 harg4 arg5 harg5 arg6 harg6 arg7 harg7 arg8 harg8 arg9 harg9 hc0 hc1 x0 x1 x2 x3 xs0 xs1 xs2, sout2_C_2 c i arg2 harg2 arg3 harg3 arg4 harg4 arg5 harg5 arg6 harg6 arg7 harg7 arg8 harg8 arg9 harg9 hc0 hc1 x0 x1 x2 x3 xs0 xs1 xs2)

end

-- The output block, the running maximum, the normaliser and the accumulator after each grid point, by recursion on the point.
def outsAt2 (c : Dev nD) : (n : ℕ) → n < cfg2.N → Vec F S1024x2048 .f32 × Vec F S1024x1 .f32 × Vec F S1024x1 .f32 × Vec F S1024x2048 .f32
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)
  | n + 1, hn =>
    if h0 : (n + 1) % 8 = 0 then
      if h1 : (n + 1) % 8 = 7 then
        False.elim (by omega)
      else
        outs2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
    else
      if h1 : (n + 1) % 8 = 7 then
        outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2
      else
        outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2

theorem outsAt2_A (c : Dev nD) (t : Fin cfg2.N) (h0 : t.val % 8 = 0) (h1 : ¬t.val % 8 = 7) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)
      ∗ Pipeline.scopedRestBut (Ix := Unit) (Name := ℕ) (U := UR sig nD τ) (Lvl := ℕ) (Val := Elt F) spec2 c [cc2_scratch0, cc2_scratch1, cc2_scratch2]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t ∗ (dat2 V c).leavesExact 4 t)

theorem Phi_out2 (c : Dev nD) (t : Fin (cfg2.N + 1)) : (dat2 V c).Φ t ⊢ Pipeline.ΦA spec2 c := by
  rw [show (dat2 V c).Φ t = PhiS2 V c t.val (Nat.le_of_lt_succ t.isLt) from rfl]
  by_cases ht : t.val = 0
  · rw [PhiS2_zero V c _ _ ht]; try exact Idealize.SL.BI.Entails.refl _
  rw [PhiS2_pos V c _ _ ht, PhiA2_eq]
  iintro ⟨⟨HS0, HS1, HS2, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 8 = 0
  · have h1 : ¬t.val % 8 = 7 := by omega
    rw [show (dat2 V c).leavesExact 0 t = owns (c : Thread nD τ) (ms2_0 t) fullShare ((dat2 V c).after 0 t) from by unfold Dat.leavesExact; rw [liveAt2_0 t], after2_0]
    rw [show (dat2 V c).leavesExact 1 t = owns (c : Thread nD τ) (ms2_1 t) fullShare ((dat2 V c).after 1 t) from by unfold Dat.leavesExact; rw [liveAt2_1 t], after2_1]
    rw [show (dat2 V c).leavesExact 2 t = owns (c : Thread nD τ) (ms2_2 t) fullShare ((dat2 V c).after 2 t) from by unfold Dat.leavesExact; rw [liveAt2_2 t], after2_2]
    rw [show (dat2 V c).leavesExact 3 t = owns (c : Thread nD τ) (ms2_3 t) fullShare ((dat2 V c).after 3 t) from by unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold outs2_A sout2_A_0 sout2_A_1 sout2_A_2; (try dsimp only)
    refine .trans (sep_mono_left (Phi_out2 V c t.castSucc)) ?_
    rw [PhiA2_eq]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hrest Hg]
    · isplitl [HS0 HS1 HS2 Hrest]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [show (dat2 V c).leavesExact 2 t = owns (c : Thread nD τ) (ms2_2 t) fullShare ((dat2 V c).after 2 t) from by unfold Dat.leavesExact; rw [liveAt2_2 t], after2_2]
      rw [show (dat2 V c).leavesExact 3 t = owns (c : Thread nD τ) (ms2_3 t) fullShare ((dat2 V c).after 3 t) from by unfold Dat.leavesExact; rw [liveAt2_3 t], after2_3]
      rw [show (dat2 V c).leavesExact 4 t = owns (c : Thread nD τ) (ms2_4 t) fullShare ((dat2 V c).after 4 t) from by unfold Dat.leavesExact; rw [liveAt2_4 t ((hcond2_1 t).mpr h1)], after2_4]
      rw [outsAt2_C V c t h0 h1]
      unfold outs2_C out2_C_4 sout2_C_0 sout2_C_1 sout2_C_2; (try dsimp only)
      rw [PhiS2_castSucc V c t, PhiS2_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_C_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      icases H4 with ⟨%e4, H4⟩
      unfold owns; iexists _; isplitr
      swap; · iexact H4
      ipureintro; exact View.read_writes_of_cover _ _ _ _ _ (cover2_C_4 c _ _ _ _ _ _ _ _ _ _ _ _ _ _ _ _ _ _ _ _ _ _ _ _ _ _)
    · rw [show (dat2 V c).leavesExact 0 t = owns (c : Thread nD τ) (ms2_0 t) fullShare ((dat2 V c).after 0 t) from by unfold Dat.leavesExact; rw [liveAt2_0 t], after2_0]
      rw [show (dat2 V c).leavesExact 1 t = owns (c : Thread nD τ) (ms2_1 t) fullShare ((dat2 V c).after 1 t) from by unfold Dat.leavesExact; rw [liveAt2_1 t], after2_1]
      rw [show (dat2 V c).leavesExact 2 t = owns (c : Thread nD τ) (ms2_2 t) fullShare ((dat2 V c).after 2 t) from by unfold Dat.leavesExact; rw [liveAt2_2 t], after2_2]
      rw [show (dat2 V c).leavesExact 3 t = owns (c : Thread nD τ) (ms2_3 t) fullShare ((dat2 V c).after 3 t) from by unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold outs2_B sout2_B_0 sout2_B_1 sout2_B_2; (try dsimp only)
      rw [PhiS2_castSucc V c t, PhiS2_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := Phi_out2 V c _

end Cert.KernelIdeal.Hand

end
-- ==== Proof.KI.FlashRuns3.lean ====
import proofs.«404947_j13649406066966_2_alg».proof.Proof.Gen.KernelIdeal.Launch
import proofs.«404947_j13649406066966_2_alg».proof.Proof.Gen.KernelIdeal.Skeleton
import proofs.«404947_j13649406066966_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k2_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x2048 .f32 := win3_4.stage (cfg3.slots t 4)
abbrev hs3_4 (t : Fin cfg3.N) : (ms3_4 t).IsWhole := hstage3_4 ((cfg3.slots t 4).cast nbuf3_4)

abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x2048 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x2048 .f32 := scM3_2.view

abbrev VO3_4 : View sig .tc .vmem S1024x2048 .f32 := (Memref.whole cc3_stg4_0 : Memref sig .tc .vmem S1024x2048 .f32).view

end Cert.KernelIdeal.Hand

end
-- ==== Proof.KI.FlashRegion3.lean ====
import proofs.«404947_j13649406066966_2_alg».proof.Proof.KI.FlashRuns3
import proofs.«404947_j13649406066966_2_alg».proof.Proof.KI.FlashRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

def outsAt3 (c : Dev nD) : (n : ℕ) → n < cfg3.N → Vec F S1024x2048 .f32 × Vec F S1024x1 .f32 × Vec F S1024x1 .f32 × Vec F S1024x2048 .f32
  | 0, hn => outs2_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩)
  | n + 1, hn =>
    if h0 : (n + 1) % 8 = 0 then
      if h1 : (n + 1) % 8 = 7 then
        False.elim (by omega)
      else
        outs2_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩)
    else
      if h1 : (n + 1) % 8 = 7 then
        outs2_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2
      else
        outs2_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2

theorem outsAt3_A (c : Dev nD) (t : Fin cfg3.N) (h0 : t.val % 8 = 0) (h1 : ¬t.val % 8 = 7) :
    outsAt3 V c t.val t.isLt = outs2_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = outs2_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = outs2_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)
      ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem before3_0 (c : Dev nD) (t : Fin cfg3.N) (d) : (dat3 V c).before 0 t d = iblk3 V c 0 t := before3_0_of V (dat3 V c) (A_eq3 V c 0) (after3_0 V c) t d
theorem before3_1 (c : Dev nD) (t : Fin cfg3.N) (d) : (dat3 V c).before 1 t d = iblk3 V c 1 t := before3_1_of V (dat3 V c) (A_eq3 V c 1) (after3_1 V c) t d
theorem before3_2 (c : Dev nD) (t : Fin cfg3.N) (d) : (dat3 V c).before 2 t d = iblk3 V c 2 t := before3_2_of V (dat3 V c) (A_eq3 V c 2) (after3_2 V c) t d
theorem before3_3 (c : Dev nD) (t : Fin cfg3.N) (d) : (dat3 V c).before 3 t d = iblk3 V c 3 t := before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t ∗ (dat3 V c).leavesExact 4 t)

theorem Phi_out3 (c : Dev nD) (t : Fin (cfg3.N + 1)) : (dat3 V c).Φ t ⊢ Pipeline.ΦA spec3 c := by
  rw [show (dat3 V c).Φ t = PhiS3 V c t.val (Nat.le_of_lt_succ t.isLt) from rfl]
  by_cases ht : t.val = 0
  · rw [PhiS3_zero V c _ _ ht]; try exact Idealize.SL.BI.Entails.refl _
  rw [PhiS3_pos V c _ _ ht, PhiA3_eq]
  iintro ⟨⟨HS0, HS1, HS2, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show cc3__flash_kernel (F := F) = cc2__flash_kernel from rfl]
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 8 = 0
  · have h1 : ¬t.val % 8 = 7 := by omega
    rw [show (dat3 V c).leavesExact 0 t = owns (c : Thread nD τ) (ms3_0 t) fullShare ((dat3 V c).after 0 t) from by unfold Dat.leavesExact; rw [liveAt3_0 t], after3_0]
    rw [show (dat3 V c).leavesExact 1 t = owns (c : Thread nD τ) (ms3_1 t) fullShare ((dat3 V c).after 1 t) from by unfold Dat.leavesExact; rw [liveAt3_1 t], after3_1]
    rw [show (dat3 V c).leavesExact 2 t = owns (c : Thread nD τ) (ms3_2 t) fullShare ((dat3 V c).after 2 t) from by unfold Dat.leavesExact; rw [liveAt3_2 t], after3_2]
    rw [show (dat3 V c).leavesExact 3 t = owns (c : Thread nD τ) (ms3_3 t) fullShare ((dat3 V c).after 3 t) from by unfold Dat.leavesExact; rw [liveAt3_3 t], after3_3]
    rw [Dat.leavesExact_idle (dat3 V c) 4 t (idleAt3_4 t (fun h => h1 ((hcond3_1 t).mp h))) (noFlush3_4 t (fun h => h1 ((hcond3_1 t).mp h)))]
    rw [outsAt3_A V c t h0 h1]
    unfold outs2_A sout2_A_0 sout2_A_1 sout2_A_2; (try dsimp only)
    refine .trans (sep_mono_left (Phi_out3 V c t.castSucc)) ?_
    rw [PhiA3_eq]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun2_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hrest Hg]
    · isplitl [HS0 HS1 HS2 Hrest]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dat3 V c).leavesExact 0 t = owns (c : Thread nD τ) (ms3_0 t) fullShare ((dat3 V c).after 0 t) from by unfold Dat.leavesExact; rw [liveAt3_0 t], after3_0]
      rw [show (dat3 V c).leavesExact 1 t = owns (c : Thread nD τ) (ms3_1 t) fullShare ((dat3 V c).after 1 t) from by unfold Dat.leavesExact; rw [liveAt3_1 t], after3_1]
      rw [show (dat3 V c).leavesExact 2 t = owns (c : Thread nD τ) (ms3_2 t) fullShare ((dat3 V c).after 2 t) from by unfold Dat.leavesExact; rw [liveAt3_2 t], after3_2]
      rw [show (dat3 V c).leavesExact 3 t = owns (c : Thread nD τ) (ms3_3 t) fullShare ((dat3 V c).after 3 t) from by unfold Dat.leavesExact; rw [liveAt3_3 t], after3_3]
      rw [show (dat3 V c).leavesExact 4 t = owns (c : Thread nD τ) (ms3_4 t) fullShare ((dat3 V c).after 4 t) from by unfold Dat.leavesExact; rw [liveAt3_4 t ((hcond3_1 t).mpr h1)], after3_4]
      rw [outsAt3_C V c t h0 h1]
      unfold outs2_C out2_C_4 sout2_C_0 sout2_C_1 sout2_C_2; (try dsimp only)
      rw [PhiS3_castSucc V c t, PhiS3_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((kernelRun2_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_C_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      icases H4 with ⟨%e4, H4⟩
      unfold owns; iexists _; isplitr
      swap; · iexact H4
      ipureintro; exact View.read_writes_of_cover _ _ _ _ _ (cover2_C_4 c _ _ _ _ _ _ _ _ _ _ _ _ _ _ _ _ _ _ _ _ _ _ _ _ _ _)
    · rw [show (dat3 V c).leavesExact 0 t = owns (c : Thread nD τ) (ms3_0 t) fullShare ((dat3 V c).after 0 t) from by unfold Dat.leavesExact; rw [liveAt3_0 t], after3_0]
      rw [show (dat3 V c).leavesExact 1 t = owns (c : Thread nD τ) (ms3_1 t) fullShare ((dat3 V c).after 1 t) from by unfold Dat.leavesExact; rw [liveAt3_1 t], after3_1]
      rw [show (dat3 V c).leavesExact 2 t = owns (c : Thread nD τ) (ms3_2 t) fullShare ((dat3 V c).after 2 t) from by unfold Dat.leavesExact; rw [liveAt3_2 t], after3_2]
      rw [show (dat3 V c).leavesExact 3 t = owns (c : Thread nD τ) (ms3_3 t) fullShare ((dat3 V c).after 3 t) from by unfold Dat.leavesExact; rw [liveAt3_3 t], after3_3]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold outs2_B sout2_B_0 sout2_B_1 sout2_B_2; (try dsimp only)
      rw [PhiS3_castSucc V c t, PhiS3_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((kernelRun2_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := Phi_out3 V c _

end Cert.KernelIdeal.Hand

end
-- ==== Proof.KI.MainRun.lean ====
import proofs.«404947_j13649406066966_2_alg».proof.Proof.KI.ProjRegion0
import proofs.«404947_j13649406066966_2_alg».proof.Proof.KI.ProjRegion1
import proofs.«404947_j13649406066966_2_alg».proof.Proof.KI.FlashRegion2
import proofs.«404947_j13649406066966_2_alg».proof.Proof.KI.FlashRegion3
import proofs.«404947_j13649406066966_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The unscoped buffers' contents at each boundary between a host stretch and a launch.
abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

-- Each boundary changes only a launch's arrays or a host stretch's results.
theorem W6_kept (c : Dev nD) (b : Ref sig .tc)
    (h : (∀ w, Pipeline.arrRef spec3 w ≠ b) ∧ (∀ w, Pipeline.arrRef spec2 w ≠ b) ∧ b ∉ hostOps2_W
      ∧ (∀ w, Pipeline.arrRef spec1 w ≠ b) ∧ (∀ w, Pipeline.arrRef spec0 w ≠ b) ∧ b ∉ hostOps0_W) :
    W6 m ρ c (Proc.devRef .tc b) = m ((c : Thread nD τ).loc b) :=
  calc W6 m ρ c (Proc.devRef .tc b)
    _ = W5 m ρ c (Proc.devRef .tc b) := W6_of_ne m ρ c b h.1
    _ = W4 m ρ c (Proc.devRef .tc b) := W5_of_ne m ρ c b h.2.1
    _ = W3 m ρ c (Proc.devRef .tc b) := StableHlo.after_of_writes_sub hostOps2 _ hostOps2_writes h.2.2.1
    _ = W2 m ρ c (Proc.devRef .tc b) := W3_of_ne m ρ c b h.2.2.2.1
    _ = W1 m ρ c (Proc.devRef .tc b) := W2_of_ne m ρ c b h.2.2.2.2.1
    _ = W0 m ρ c (Proc.devRef .tc b) := StableHlo.after_of_writes_sub hostOps0 _ hostOps0_writes h.2.2.2.2.2
    _ = m ((c : Thread nD τ).loc b) := rfl

theorem W6_main_v17 (c : Dev nD) : W6 m ρ c (Proc.devRef .tc main_v17) = (dat2 (V4 m ρ) c).arrAt 4 cfg2.N :=
  (W6_of_ne m ρ c main_v17 (by decide)).trans (W5_arr m ρ c 4)

theorem W6_main_v18 (c : Dev nD) : W6 m ρ c (Proc.devRef .tc main_v18) = (dat3 (V5 m ρ) c).arrAt 4 cfg3.N :=
  W6_arr m ρ c 4

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    refine .trans ?_ (hin2 (V4 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V4 m ρ) c).Φ (Fin.last cfg2.N) from rfl]
    refine .trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V5 m ρ) c).Φ 0 from rfl]
    refine .trans ?_ (hin3 (V5 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V5 m ρ) c).Φ (Fin.last cfg3.N) from rfl]
    refine .trans (hout3 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

theorem run_results : θ_run defs (onTc (τ := τ) (main (F := F))) ⟨m, fun _ => 0, ρ⟩ (fun r => ∀ c : Dev nD,
      r.2.mem ((c.tc : Thread nD τ).loc main_v17) = (dat2 (V4 m ρ) c).arrAt 4 cfg2.N
      ∧ r.2.mem ((c.tc : Thread nD τ).loc main_v18) = (dat3 (V5 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have kept (b : Ref sig .tc) (hu : ¬ (Proc.devRef .tc b : DevRef τ sig).isScoped) hb :
        r.2.mem ((c.tc : Thread nD τ).loc b) = m ((c.tc : Thread nD τ).loc b) :=
      (h c _ (mem_uc b hu)).trans (W6_kept m ρ c b hb)
    ⟨(h c _ (mem_uc main_v17 (by decide))).trans (W6_main_v17 m ρ c), (h c _ (mem_uc main_v18 (by decide))).trans (W6_main_v18 m ρ c),
      kept main_arg0 (by decide) (by decide), kept main_arg1 (by decide) (by decide), kept main_arg2 (by decide) (by decide),
      kept main_arg3 (by decide) (by decide), kept main_arg4 (by decide) (by decide), kept main_arg5 (by decide) (by decide),
      kept main_arg6 (by decide) (by decide), kept main_arg7 (by decide) (by decide), kept main_arg8 (by decide) (by decide)⟩) (run_all m ρ)

end Cert.KernelIdeal.Hand

end
-- ==== Proof.KI.HostRead.lean ====
import proofs.«404947_j13649406066966_2_alg».proof.Proof.KI.MainRun
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

theorem V1_main_v0_apply (c : Dev nD) (i : S4096x2048.Idx) :
    @Eq EReal (V1 (F := Ideal) m ρ c main_v0 i) (m ((c : Thread nD τ).loc main_arg0) i) := by
  have e : @Eq (FVec Ideal S4096x2048 .bf16) (V1 (F := Ideal) m ρ c main_v0)
      (truncf (F := Ideal) .bf16 (show FVec Ideal S4096x2048 .f32 from m ((c : Thread nD τ).loc main_arg0)) bitsLt_bf16_f32) := by
    show StableHlo.after hostOps0 (W0 m ρ c) (Proc.devRef .tc main_v0) = _
    after_results
  exact congrFun e i

theorem V1_main_v1_apply (c : Dev nD) (i : S4096x2048.Idx) :
    @Eq EReal (V1 (F := Ideal) m ρ c main_v1 i) (m ((c : Thread nD τ).loc main_arg1) i) := by
  have e : @Eq (FVec Ideal S4096x2048 .bf16) (V1 (F := Ideal) m ρ c main_v1)
      (truncf (F := Ideal) .bf16 (show FVec Ideal S4096x2048 .f32 from m ((c : Thread nD τ).loc main_arg1)) bitsLt_bf16_f32) := by
    show StableHlo.after hostOps0 (W0 m ρ c) (Proc.devRef .tc main_v1) = _
    after_results
  exact congrFun e i

theorem V1_main_v3_apply (c : Dev nD) (k d : Fin 2048) :
    @Eq EReal (V1 (F := Ideal) m ρ c main_v3 (ix2 k d)) (m ((c : Thread nD τ).loc main_arg2) (ix2 d k)) := by
  have e : @Eq (FVec Ideal S2048x2048 .bf16) (V1 (F := Ideal) m ρ c main_v3)
      (truncf (F := Ideal) .bf16 (transpose S2048x2048 [1, 0] (show FVec Ideal S2048x2048 .f32 from m ((c : Thread nD τ).loc main_arg2)) transposes_S2048x2048_S2048x2048_1_0) bitsLt_bf16_f32) := by
    show StableHlo.after hostOps0 (W0 m ρ c) (Proc.devRef .tc main_v3) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

theorem V1_main_v5_apply (c : Dev nD) (k d : Fin 2048) :
    @Eq EReal (V1 (F := Ideal) m ρ c main_v5 (ix2 k d)) (m ((c : Thread nD τ).loc main_arg3) (ix2 d k)) := by
  have e : @Eq (FVec Ideal S2048x2048 .bf16) (V1 (F := Ideal) m ρ c main_v5)
      (truncf (F := Ideal) .bf16 (transpose S2048x2048 [1, 0] (show FVec Ideal S2048x2048 .f32 from m ((c : Thread nD τ).loc main_arg3)) transposes_S2048x2048_S2048x2048_1_0) bitsLt_bf16_f32) := by
    show StableHlo.after hostOps0 (W0 m ρ c) (Proc.devRef .tc main_v5) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

theorem V1_main_v7_apply (c : Dev nD) (k d : Fin 2048) :
    @Eq EReal (V1 (F := Ideal) m ρ c main_v7 (ix2 k d)) (m ((c : Thread nD τ).loc main_arg4) (ix2 d k)) := by
  have e : @Eq (FVec Ideal S2048x2048 .bf16) (V1 (F := Ideal) m ρ c main_v7)
      (truncf (F := Ideal) .bf16 (transpose S2048x2048 [1, 0] (show FVec Ideal S2048x2048 .f32 from m ((c : Thread nD τ).loc main_arg4)) transposes_S2048x2048_S2048x2048_1_0) bitsLt_bf16_f32) := by
    show StableHlo.after hostOps0 (W0 m ρ c) (Proc.devRef .tc main_v7) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

theorem V1_main_v9_apply (c : Dev nD) (k d : Fin 2048) :
    @Eq EReal (V1 (F := Ideal) m ρ c main_v9 (ix2 k d)) (m ((c : Thread nD τ).loc main_arg5) (ix2 d k)) := by
  have e : @Eq (FVec Ideal S2048x2048 .bf16) (V1 (F := Ideal) m ρ c main_v9)
      (truncf (F := Ideal) .bf16 (transpose S2048x2048 [1, 0] (show FVec Ideal S2048x2048 .f32 from m ((c : Thread nD τ).loc main_arg5)) transposes_S2048x2048_S2048x2048_1_0) bitsLt_bf16_f32) := by
    show StableHlo.after hostOps0 (W0 m ρ c) (Proc.devRef .tc main_v9) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

theorem V1_main_v11_apply (c : Dev nD) (k d : Fin 2048) :
    @Eq EReal (V1 (F := Ideal) m ρ c main_v11 (ix2 k d)) (m ((c : Thread nD τ).loc main_arg6) (ix2 d k)) := by
  have e : @Eq (FVec Ideal S2048x2048 .bf16) (V1 (F := Ideal) m ρ c main_v11)
      (truncf (F := Ideal) .bf16 (transpose S2048x2048 [1, 0] (show FVec Ideal S2048x2048 .f32 from m ((c : Thread nD τ).loc main_arg6)) transposes_S2048x2048_S2048x2048_1_0) bitsLt_bf16_f32) := by
    show StableHlo.after hostOps0 (W0 m ρ c) (Proc.devRef .tc main_v11) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

theorem V1_main_v13_apply (c : Dev nD) (k d : Fin 2048) :
    @Eq EReal (V1 (F := Ideal) m ρ c main_v13 (ix2 k d)) (m ((c : Thread nD τ).loc main_arg7) (ix2 d k)) := by
  have e : @Eq (FVec Ideal S2048x2048 .bf16) (V1 (F := Ideal) m ρ c main_v13)
      (truncf (F := Ideal) .bf16 (transpose S2048x2048 [1, 0] (show FVec Ideal S2048x2048 .f32 from m ((c : Thread nD τ).loc main_arg7)) transposes_S2048x2048_S2048x2048_1_0) bitsLt_bf16_f32) := by
    show StableHlo.after hostOps0 (W0 m ρ c) (Proc.devRef .tc main_v13) = _
    after_results
  refine (congrFun e (ix2 k d)).trans ?_
  exact transpose_apply [1, 0] _ transposes_S2048x2048_S2048x2048_1_0 (ix2 k d) (ix2 d k) (fun b => match b with
    | ⟨0, _⟩ => rfl
    | ⟨1, _⟩ => rfl)

end Cert.KernelIdeal.Hand

end
-- ==== Proof.KI.ProjValue0.lean ====
import proofs.«404947_j13649406066966_2_alg».proof.Proof.KI.ProjRegion0
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

abbrev matProd0 (X : S4096x2048.Idx → EReal) (W : S2048x2048.Idx → EReal) : S4096x2048.Idx → EReal :=
  fun i => ∑ k : Fin 2048, X (ix2 ⟨(i 0).val, idx2_lt0 i⟩ k) * W (ix2 k ⟨(i 1).val, idx2_lt1 i⟩)

theorem lhs0_proj_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs0_proj_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs0_proj_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs0_proj_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

theorem matmul0_zero_entry (a : FVec Ideal S512x2048 .bf16) (b : FVec Ideal S2048x2048 .bf16) (p : Fin 512) (q : Fin 2048) :
    FloatOps.matmul dot_S512x2048_S2048x2048_S512x2048_1_0_0_1_n_n none a b (constant (F := Ideal) S512x2048 .f32 0x00000000#32) (ix2 p q)
      = ∑ k : Fin 2048, a (ix2 p k) * b (ix2 k q) := by
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun a => Fin.ext (by
    match a with
    | ⟨0, _⟩ => exact lhs0_proj_0 _ _
    | ⟨1, _⟩ => exact (lhs0_proj_1 _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun a => Fin.ext (by
    match a with
    | ⟨0, _⟩ => exact (rhs0_proj_0 _ _).trans hk
    | ⟨1, _⟩ => exact rhs0_proj_1 _ _)
  rw [el, er]

theorem pay0_2_entry (x0 : Vec Ideal S512x2048 .bf16) (w : Vec Ideal S2048x2048 .bf16) (p : Fin 512) (q : Fin 2048) :
    k0_pay2 (F := Ideal) x0 w (ix2 p q) = ∑ k : Fin 2048, (x0 : S512x2048.Idx → EReal) (ix2 p k) * (w : S2048x2048.Idx → EReal) (ix2 k q) := by
  unfold k0_pay2 k0_pay1
  simp only [shapeCast_self]
  exact matmul0_zero_entry x0 w p q

theorem pay0_3_entry (x0 : Vec Ideal S512x2048 .bf16) (w : Vec Ideal S2048x2048 .bf16) (p : Fin 512) (q : Fin 2048) :
    k0_pay3 (F := Ideal) x0 w (ix2 p q) = ∑ k : Fin 2048, (x0 : S512x2048.Idx → EReal) (ix2 p k) * (w : S2048x2048.Idx → EReal) (ix2 k q) := by
  unfold k0_pay3 k0_pay1
  simp only [shapeCast_self]
  exact matmul0_zero_entry x0 w p q

theorem pay0_4_entry (x0 : Vec Ideal S512x2048 .bf16) (w : Vec Ideal S2048x2048 .bf16) (p : Fin 512) (q : Fin 2048) :
    k0_pay4 (F := Ideal) x0 w (ix2 p q) = ∑ k : Fin 2048, (x0 : S512x2048.Idx → EReal) (ix2 p k) * (w : S2048x2048.Idx → EReal) (ix2 k q) := by
  unfold k0_pay4 k0_pay1
  simp only [shapeCast_self]
  rw [truncf_apply]
  exact matmul0_zero_entry x0 w p q

theorem prod0_block (x0 : S512x2048.Idx → EReal) (w : S2048x2048.Idx → EReal) (X : S4096x2048.Idx → EReal) (W : S2048x2048.Idx → EReal) (n : ℕ)
    (hx : ∀ (y : S512x2048.Idx) (i : S4096x2048.Idx), (i 0).val = n * 512 + (y 0).val → (i 1).val = (y 1).val → x0 y = X i)
    (hw : ∀ y, w y = W y) (p : Fin 512) (q : Fin 2048) (i : S4096x2048.Idx) (h0 : (i 0).val = n * 512 + p.val) (h1 : (i 1).val = q.val) :
    ∑ k : Fin 2048, x0 (ix2 p k) * w (ix2 k q) = matProd0 X W i := by
  have hq : (⟨(i 1).val, idx2_lt1 i⟩ : Fin 2048) = q := Fin.ext h1
  show _ = ∑ k : Fin 2048, X (ix2 ⟨(i 0).val, idx2_lt0 i⟩ k) * W (ix2 k ⟨(i 1).val, idx2_lt1 i⟩)
  rw [hq]
  refine Finset.sum_congr rfl fun k _ => ?_
  rw [hx (ix2 p k) (ix2 ⟨(i 0).val, idx2_lt0 i⟩ k) h0 rfl, hw]

theorem pay0_2_block (x0 : Vec Ideal S512x2048 .bf16) (w : Vec Ideal S2048x2048 .bf16) (X : S4096x2048.Idx → EReal) (W : S2048x2048.Idx → EReal) (n : ℕ)
    (hx : ∀ (y : S512x2048.Idx) (i : S4096x2048.Idx), (i 0).val = n * 512 + (y 0).val → (i 1).val = (y 1).val → x0 y = X i)
    (hw : ∀ y, w y = W y) (y : S512x2048.Idx) (i : S4096x2048.Idx) (h0 : (i 0).val = n * 512 + (y 0).val) (h1 : (i 1).val = (y 1).val) :
    k0_pay2 (F := Ideal) x0 w y = matProd0 X W i := by
  obtain ⟨p, q, rfl⟩ : ∃ (p : Fin 512) (q : Fin 2048), y = ix2 p q := ⟨y 0, y 1, eq_ix2 y⟩
  rw [pay0_2_entry]
  exact prod0_block x0 w X W n hx hw p q i h0 h1

theorem pay0_3_block (x0 : Vec Ideal S512x2048 .bf16) (w : Vec Ideal S2048x2048 .bf16) (X : S4096x2048.Idx → EReal) (W : S2048x2048.Idx → EReal) (n : ℕ)
    (hx : ∀ (y : S512x2048.Idx) (i : S4096x2048.Idx), (i 0).val = n * 512 + (y 0).val → (i 1).val = (y 1).val → x0 y = X i)
    (hw : ∀ y, w y = W y) (y : S512x2048.Idx) (i : S4096x2048.Idx) (h0 : (i 0).val = n * 512 + (y 0).val) (h1 : (i 1).val = (y 1).val) :
    k0_pay3 (F := Ideal) x0 w y = matProd0 X W i := by
  obtain ⟨p, q, rfl⟩ : ∃ (p : Fin 512) (q : Fin 2048), y = ix2 p q := ⟨y 0, y 1, eq_ix2 y⟩
  rw [pay0_3_entry]
  exact prod0_block x0 w X W n hx hw p q i h0 h1

theorem pay0_4_block (x0 : Vec Ideal S512x2048 .bf16) (w : Vec Ideal S2048x2048 .bf16) (X : S4096x2048.Idx → EReal) (W : S2048x2048.Idx → EReal) (n : ℕ)
    (hx : ∀ (y : S512x2048.Idx) (i : S4096x2048.Idx), (i 0).val = n * 512 + (y 0).val → (i 1).val = (y 1).val → x0 y = X i)
    (hw : ∀ y, w y = W y) (y : S512x2048.Idx) (i : S4096x2048.Idx) (h0 : (i 0).val = n * 512 + (y 0).val) (h1 : (i 1).val = (y 1).val) :
    k0_pay4 (F := Ideal) x0 w y = matProd0 X W i := by
  obtain ⟨p, q, rfl⟩ : ∃ (p : Fin 512) (q : Fin 2048), y = ix2 p q := ⟨y 0, y 1, eq_ix2 y⟩
  rw [pay0_4_entry]
  exact prod0_block x0 w X W n hx hw p q i h0 h1

theorem idx0_x : ∀ t : Fin cfg0.N, win0_0.index t (0 : Fin 2) = t.val ∧ win0_0.index t (1 : Fin 2) = 0 :=
  (by decide +kernel : ∀ t : Fin grid0.N, _)
theorem idx0_w1 : ∀ t : Fin cfg0.N, win0_1.index t (0 : Fin 2) = 0 ∧ win0_1.index t (1 : Fin 2) = 0 :=
  (by decide +kernel : ∀ t : Fin grid0.N, _)
theorem idx0_w2 : ∀ t : Fin cfg0.N, win0_2.index t (0 : Fin 2) = 0 ∧ win0_2.index t (1 : Fin 2) = 0 :=
  (by decide +kernel : ∀ t : Fin grid0.N, _)
theorem idx0_w3 : ∀ t : Fin cfg0.N, win0_3.index t (0 : Fin 2) = 0 ∧ win0_3.index t (1 : Fin 2) = 0 :=
  (by decide +kernel : ∀ t : Fin grid0.N, _)
theorem idx0_o4 : ∀ t : Fin cfg0.N, win0_4.index t (0 : Fin 2) = t.val ∧ win0_4.index t (1 : Fin 2) = 0 :=
  (by decide +kernel : ∀ t : Fin grid0.N, _)
theorem idx0_o5 : ∀ t : Fin cfg0.N, win0_5.index t (0 : Fin 2) = t.val ∧ win0_5.index t (1 : Fin 2) = 0 :=
  (by decide +kernel : ∀ t : Fin grid0.N, _)
theorem idx0_o6 : ∀ t : Fin cfg0.N, win0_6.index t (0 : Fin 2) = t.val ∧ win0_6.index t (1 : Fin 2) = 0 :=
  (by decide +kernel : ∀ t : Fin grid0.N, _)

theorem xblk0_apply (c : Dev nD) (t : Fin cfg0.N) (y : S512x2048.Idx) (i : S4096x2048.Idx)
    (h0 : (i 0).val = t.val * 512 + (y 0).val) (h1 : (i 1).val = (y 1).val) :
    (iblk0 V c 0 t : Vec Ideal S512x2048 .bf16) y = (V c main_v0 : S4096x2048.Idx → EReal) i := by
  obtain ⟨e0, e1⟩ := idx0_x t
  unfold iblk0
  rw [View.read_apply]
  show (V c main_v0 : S4096x2048.Idx → EReal) _ = _
  refine congrArg (V c main_v0 : S4096x2048.Idx → EReal) ?_
  funext a; apply Fin.ext
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

theorem wblk0_1_apply (c : Dev nD) (t : Fin cfg0.N) (y : S2048x2048.Idx) :
    (iblk0 V c 1 t : Vec Ideal S2048x2048 .bf16) y = (V c main_v3 : S2048x2048.Idx → EReal) y := by
  obtain ⟨e0, e1⟩ := idx0_w1 t
  unfold iblk0
  rw [View.read_apply]
  show (V c main_v3 : S2048x2048.Idx → EReal) _ = _
  refine congrArg (V c main_v3 : S2048x2048.Idx → EReal) ?_
  funext a; apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

theorem wblk0_2_apply (c : Dev nD) (t : Fin cfg0.N) (y : S2048x2048.Idx) :
    (iblk0 V c 2 t : Vec Ideal S2048x2048 .bf16) y = (V c main_v5 : S2048x2048.Idx → EReal) y := by
  obtain ⟨e0, e1⟩ := idx0_w2 t
  unfold iblk0
  rw [View.read_apply]
  show (V c main_v5 : S2048x2048.Idx → EReal) _ = _
  refine congrArg (V c main_v5 : S2048x2048.Idx → EReal) ?_
  funext a; apply Fin.ext
  match a with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega

theorem wblk0_3_apply (c : Dev nD) (t : Fin cfg0.N) (y : S2048x2048.Idx) :
    (iblk0 V c 3 t : Vec Ideal S2048x2048 .bf16) y = (V c main_v7 : S2048x2048.Idx → EReal) y := by
  obtain ⟨e0, e1⟩ := idx0_w3 t
  unfold iblk0
  rw [View.read_apply]
  show (V c main_v7 : S2048x2048.Idx → EReal) _ = _
  refine congrArg (V c main_v7 : S2048x2048.Idx → EReal) ?_
  funext a; apply Fin.ext
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

theorem flushed0_4_eq (c : Dev nD) (t : Fin cfg0.N) :
    (dat0 (F := Ideal) V c).flushed 4 t = ((cfg0.win 4).blk t).view.read (Elt Ideal) (matProd0 (V c main_v0) (V c main_v3)) := by
  show (cfg0.win 4).cut (grid0.coords t) ((dat0 (F := Ideal) V c).after 4 t) = _
  rw [after0_4]
  unfold out0_4
  rw [View.canon_unit_zero hz0]
  simp only [View.ld_unit_zero (S := S512x2048) hz0, View.ld_unit_zero (S := S2048x2048) hz0]
  obtain ⟨e0, e1⟩ := idx0_o4 t
  funext j
  show k0_pay2 (F := Ideal) (iblk0 V c 0 t) (iblk0 V c 1 t) j = matProd0 (V c main_v0) (V c main_v3) (((cfg0.win 4).blk t).view.emb j)
  refine pay0_2_block (iblk0 V c 0 t) (iblk0 V c 1 t) (V c main_v0) (V c main_v3) t.val
    (fun y i => xblk0_apply V c t y i) (fun y => wblk0_1_apply V c t y) j _ ?_ ?_
  · show win0_4.index t (0 : Fin 2) * 512 + 1 * (j 0).val = t.val * 512 + (j 0).val; rw [e0]; omega
  · show win0_4.index t (1 : Fin 2) * 2048 + 1 * (j 1).val = (j 1).val; rw [e1]; omega

theorem mem_blk0_4 (t : Fin cfg0.N) (i : S4096x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v14_0).slice (win0_4.rect t)).set ↔ _
  rw [View.set_slice_whole, Rect.mem_set_unit]
  exact Iff.rfl

theorem covered0_4 (i : S4096x2048.Idx) :
    ∃ t : Fin cfg0.N, (cfg0.win 4).flush t = true ∧ i ∈ ((cfg0.win 4).blk t).view.set := by
  have hi0 : (i 0).val < 4096 := idx2_lt0 i
  have hi1 : (i 1).val < 2048 := idx2_lt1 i
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := idx0_o4 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 2048 ≤ (i 1).val ∧ (i 1).val < win0_4.index t (1 : Fin 2) * 2048 + 2048; rw [e1]; omega

theorem arr0_4_eq (c : Dev nD) : (dat0 (F := Ideal) V c).arrAt 4 cfg0.N = matProd0 (V c main_v0) (V c main_v3) :=
  (dat0 (F := Ideal) V c).arrAt_eq_of_cover 4 (matProd0 (V c main_v0) (V c main_v3)) (fun t _ => flushed0_4_eq V c t) covered0_4

theorem arr0_4_apply (c : Dev nD) (r : Fin 4096) (d : Fin 2048) :
    @Eq EReal ((dat0 (F := Ideal) V c).arrAt 4 cfg0.N (ix2 r d))
      (∑ k : Fin 2048, @HMul.hMul EReal EReal EReal _ (V c main_v0 (ix2 r k)) (V c main_v3 (ix2 k d))) :=
  congrFun (arr0_4_eq V c) (ix2 r d)

theorem flushed0_5_eq (c : Dev nD) (t : Fin cfg0.N) :
    (dat0 (F := Ideal) V c).flushed 5 t = ((cfg0.win 5).blk t).view.read (Elt Ideal) (matProd0 (V c main_v0) (V c main_v5)) := by
  show (cfg0.win 5).cut (grid0.coords t) ((dat0 (F := Ideal) V c).after 5 t) = _
  rw [after0_5]
  unfold out0_5
  rw [View.canon_unit_zero hz0]
  simp only [View.ld_unit_zero (S := S512x2048) hz0, View.ld_unit_zero (S := S2048x2048) hz0]
  obtain ⟨e0, e1⟩ := idx0_o5 t
  funext j
  show k0_pay3 (F := Ideal) (iblk0 V c 0 t) (iblk0 V c 2 t) j = matProd0 (V c main_v0) (V c main_v5) (((cfg0.win 5).blk t).view.emb j)
  refine pay0_3_block (iblk0 V c 0 t) (iblk0 V c 2 t) (V c main_v0) (V c main_v5) t.val
    (fun y i => xblk0_apply V c t y i) (fun y => wblk0_2_apply V c t y) j _ ?_ ?_
  · show win0_5.index t (0 : Fin 2) * 512 + 1 * (j 0).val = t.val * 512 + (j 0).val; rw [e0]; omega
  · show win0_5.index t (1 : Fin 2) * 2048 + 1 * (j 1).val = (j 1).val; rw [e1]; omega

theorem mem_blk0_5 (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v14_1).slice (win0_5.rect t)).set ↔ _
  rw [View.set_slice_whole, Rect.mem_set_unit]
  exact Iff.rfl

theorem covered0_5 (i : S4096x2048.Idx) :
    ∃ t : Fin cfg0.N, (cfg0.win 5).flush t = true ∧ i ∈ ((cfg0.win 5).blk t).view.set := by
  have hi0 : (i 0).val < 4096 := idx2_lt0 i
  have hi1 : (i 1).val < 2048 := idx2_lt1 i
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := idx0_o5 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 2048 ≤ (i 1).val ∧ (i 1).val < win0_5.index t (1 : Fin 2) * 2048 + 2048; rw [e1]; omega

theorem arr0_5_eq (c : Dev nD) : (dat0 (F := Ideal) V c).arrAt 5 cfg0.N = matProd0 (V c main_v0) (V c main_v5) :=
  (dat0 (F := Ideal) V c).arrAt_eq_of_cover 5 (matProd0 (V c main_v0) (V c main_v5)) (fun t _ => flushed0_5_eq V c t) covered0_5

theorem arr0_5_apply (c : Dev nD) (r : Fin 4096) (d : Fin 2048) :
    @Eq EReal ((dat0 (F := Ideal) V c).arrAt 5 cfg0.N (ix2 r d))
      (∑ k : Fin 2048, @HMul.hMul EReal EReal EReal _ (V c main_v0 (ix2 r k)) (V c main_v5 (ix2 k d))) :=
  congrFun (arr0_5_eq V c) (ix2 r d)

theorem flushed0_6_eq (c : Dev nD) (t : Fin cfg0.N) :
    (dat0 (F := Ideal) V c).flushed 6 t = ((cfg0.win 6).blk t).view.read (Elt Ideal) (matProd0 (V c main_v0) (V c main_v7)) := by
  show (cfg0.win 6).cut (grid0.coords t) ((dat0 (F := Ideal) V c).after 6 t) = _
  rw [after0_6]
  unfold out0_6
  rw [View.canon_unit_zero hz0]
  simp only [View.ld_unit_zero (S := S512x2048) hz0, View.ld_unit_zero (S := S2048x2048) hz0]
  obtain ⟨e0, e1⟩ := idx0_o6 t
  funext j
  show k0_pay4 (F := Ideal) (iblk0 V c 0 t) (iblk0 V c 3 t) j = matProd0 (V c main_v0) (V c main_v7) (((cfg0.win 6).blk t).view.emb j)
  refine pay0_4_block (iblk0 V c 0 t) (iblk0 V c 3 t) (V c main_v0) (V c main_v7) t.val
    (fun y i => xblk0_apply V c t y i) (fun y => wblk0_3_apply V c t y) j _ ?_ ?_
  · show win0_6.index t (0 : Fin 2) * 512 + 1 * (j 0).val = t.val * 512 + (j 0).val; rw [e0]; omega
  · show win0_6.index t (1 : Fin 2) * 2048 + 1 * (j 1).val = (j 1).val; rw [e1]; omega

theorem mem_blk0_6 (t : Fin cfg0.N) (i : S4096x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v14_2).slice (win0_6.rect t)).set ↔ _
  rw [View.set_slice_whole, Rect.mem_set_unit]
  exact Iff.rfl

theorem covered0_6 (i : S4096x2048.Idx) :
    ∃ t : Fin cfg0.N, (cfg0.win 6).flush t = true ∧ i ∈ ((cfg0.win 6).blk t).view.set := by
  have hi0 : (i 0).val < 4096 := idx2_lt0 i
  have hi1 : (i 1).val < 2048 := idx2_lt1 i
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := idx0_o6 t
  refine ⟨t, flush0_6 t, ?_⟩
  rw [mem_blk0_6]
  intro a
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 2048 ≤ (i 1).val ∧ (i 1).val < win0_6.index t (1 : Fin 2) * 2048 + 2048; rw [e1]; omega

theorem arr0_6_eq (c : Dev nD) : (dat0 (F := Ideal) V c).arrAt 6 cfg0.N = matProd0 (V c main_v0) (V c main_v7) :=
  (dat0 (F := Ideal) V c).arrAt_eq_of_cover 6 (matProd0 (V c main_v0) (V c main_v7)) (fun t _ => flushed0_6_eq V c t) covered0_6

theorem arr0_6_apply (c : Dev nD) (r : Fin 4096) (d : Fin 2048) :
    @Eq EReal ((dat0 (F := Ideal) V c).arrAt 6 cfg0.N (ix2 r d))
      (∑ k : Fin 2048, @HMul.hMul EReal EReal EReal _ (V c main_v0 (ix2 r k)) (V c main_v7 (ix2 k d))) :=
  congrFun (arr0_6_eq V c) (ix2 r d)

end Cert.KernelIdeal.Hand

end
-- ==== Proof.KI.ProjValue1.lean ====
import proofs.«404947_j13649406066966_2_alg».proof.Proof.KI.ProjRegion1
import proofs.«404947_j13649406066966_2_alg».proof.Proof.KI.ProjValue0
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem idx1_x : ∀ t : Fin cfg1.N, win1_0.index t (0 : Fin 2) = t.val ∧ win1_0.index t (1 : Fin 2) = 0 :=
  (by decide +kernel : ∀ t : Fin grid1.N, _)
theorem idx1_w1 : ∀ t : Fin cfg1.N, win1_1.index t (0 : Fin 2) = 0 ∧ win1_1.index t (1 : Fin 2) = 0 :=
  (by decide +kernel : ∀ t : Fin grid1.N, _)
theorem idx1_w2 : ∀ t : Fin cfg1.N, win1_2.index t (0 : Fin 2) = 0 ∧ win1_2.index t (1 : Fin 2) = 0 :=
  (by decide +kernel : ∀ t : Fin grid1.N, _)
theorem idx1_w3 : ∀ t : Fin cfg1.N, win1_3.index t (0 : Fin 2) = 0 ∧ win1_3.index t (1 : Fin 2) = 0 :=
  (by decide +kernel : ∀ t : Fin grid1.N, _)
theorem idx1_o4 : ∀ t : Fin cfg1.N, win1_4.index t (0 : Fin 2) = t.val ∧ win1_4.index t (1 : Fin 2) = 0 :=
  (by decide +kernel : ∀ t : Fin grid1.N, _)
theorem idx1_o5 : ∀ t : Fin cfg1.N, win1_5.index t (0 : Fin 2) = t.val ∧ win1_5.index t (1 : Fin 2) = 0 :=
  (by decide +kernel : ∀ t : Fin grid1.N, _)
theorem idx1_o6 : ∀ t : Fin cfg1.N, win1_6.index t (0 : Fin 2) = t.val ∧ win1_6.index t (1 : Fin 2) = 0 :=
  (by decide +kernel : ∀ t : Fin grid1.N, _)

theorem xblk1_apply (c : Dev nD) (t : Fin cfg1.N) (y : S512x2048.Idx) (i : S4096x2048.Idx)
    (h0 : (i 0).val = t.val * 512 + (y 0).val) (h1 : (i 1).val = (y 1).val) :
    (iblk1 V c 0 t : Vec Ideal S512x2048 .bf16) y = (V c main_v1 : S4096x2048.Idx → EReal) i := by
  obtain ⟨e0, e1⟩ := idx1_x t
  unfold iblk1
  rw [View.read_apply]
  show (V c main_v1 : S4096x2048.Idx → EReal) _ = _
  refine congrArg (V c main_v1 : S4096x2048.Idx → EReal) ?_
  funext a; apply Fin.ext
  match a with
  | ⟨0, _⟩ => show win1_0.index t (0 : Fin 2) * 512 + 1 * (y 0).val = (i 0).val; rw [e0, h0]; omega
  | ⟨1, _⟩ => show win1_0.index t (1 : Fin 2) * 2048 + 1 * (y 1).val = (i 1).val; rw [e1, h1]; omega

theorem wblk1_1_apply (c : Dev nD) (t : Fin cfg1.N) (y : S2048x2048.Idx) :
    (iblk1 V c 1 t : Vec Ideal S2048x2048 .bf16) y = (V c main_v9 : S2048x2048.Idx → EReal) y := by
  obtain ⟨e0, e1⟩ := idx1_w1 t
  unfold iblk1
  rw [View.read_apply]
  show (V c main_v9 : S2048x2048.Idx → EReal) _ = _
  refine congrArg (V c main_v9 : S2048x2048.Idx → EReal) ?_
  funext a; apply Fin.ext
  match a with
  | ⟨0, _⟩ => show win1_1.index t (0 : Fin 2) * 2048 + 1 * (y 0).val = (y 0).val; rw [e0]; omega
  | ⟨1, _⟩ => show win1_1.index t (1 : Fin 2) * 2048 + 1 * (y 1).val = (y 1).val; rw [e1]; omega

theorem wblk1_2_apply (c : Dev nD) (t : Fin cfg1.N) (y : S2048x2048.Idx) :
    (iblk1 V c 2 t : Vec Ideal S2048x2048 .bf16) y = (V c main_v11 : S2048x2048.Idx → EReal) y := by
  obtain ⟨e0, e1⟩ := idx1_w2 t
  unfold iblk1
  rw [View.read_apply]
  show (V c main_v11 : S2048x2048.Idx → EReal) _ = _
  refine congrArg (V c main_v11 : S2048x2048.Idx → EReal) ?_
  funext a; apply Fin.ext
  match a with
  | ⟨0, _⟩ => show win1_2.index t (0 : Fin 2) * 2048 + 1 * (y 0).val = (y 0).val; rw [e0]; omega
  | ⟨1, _⟩ => show win1_2.index t (1 : Fin 2) * 2048 + 1 * (y 1).val = (y 1).val; rw [e1]; omega

theorem wblk1_3_apply (c : Dev nD) (t : Fin cfg1.N) (y : S2048x2048.Idx) :
    (iblk1 V c 3 t : Vec Ideal S2048x2048 .bf16) y = (V c main_v13 : S2048x2048.Idx → EReal) y := by
  obtain ⟨e0, e1⟩ := idx1_w3 t
  unfold iblk1
  rw [View.read_apply]
  show (V c main_v13 : S2048x2048.Idx → EReal) _ = _
  refine congrArg (V c main_v13 : S2048x2048.Idx → EReal) ?_
  funext a; apply Fin.ext
  match a with
  | ⟨0, _⟩ => show win1_3.index t (0 : Fin 2) * 2048 + 1 * (y 0).val = (y 0).val; rw [e0]; omega
  | ⟨1, _⟩ => show win1_3.index t (1 : Fin 2) * 2048 + 1 * (y 1).val = (y 1).val; rw [e1]; omega

theorem flushed1_4_eq (c : Dev nD) (t : Fin cfg1.N) :
    (dat1 (F := Ideal) V c).flushed 4 t = ((cfg1.win 4).blk t).view.read (Elt Ideal) (matProd0 (V c main_v1) (V c main_v9)) := by
  show (cfg1.win 4).cut (grid1.coords t) ((dat1 (F := Ideal) V c).after 4 t) = _
  rw [after1_4]
  unfold out0_4
  rw [View.canon_unit_zero hz0]
  simp only [View.ld_unit_zero (S := S512x2048) hz0, View.ld_unit_zero (S := S2048x2048) hz0]
  obtain ⟨e0, e1⟩ := idx1_o4 t
  funext j
  show k0_pay2 (F := Ideal) (iblk1 V c 0 t) (iblk1 V c 1 t) j = matProd0 (V c main_v1) (V c main_v9) (((cfg1.win 4).blk t).view.emb j)
  refine pay0_2_block (iblk1 V c 0 t) (iblk1 V c 1 t) (V c main_v1) (V c main_v9) t.val
    (fun y i => xblk1_apply V c t y i) (fun y => wblk1_1_apply V c t y) j _ ?_ ?_
  · show win1_4.index t (0 : Fin 2) * 512 + 1 * (j 0).val = t.val * 512 + (j 0).val; rw [e0]; omega
  · show win1_4.index t (1 : Fin 2) * 2048 + 1 * (j 1).val = (j 1).val; rw [e1]; omega

theorem mem_blk1_4 (t : Fin cfg1.N) (i : S4096x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v15_0).slice (win1_4.rect t)).set ↔ _
  rw [View.set_slice_whole, Rect.mem_set_unit]
  exact Iff.rfl

theorem covered1_4 (i : S4096x2048.Idx) :
    ∃ t : Fin cfg1.N, (cfg1.win 4).flush t = true ∧ i ∈ ((cfg1.win 4).blk t).view.set := by
  have hi0 : (i 0).val < 4096 := idx2_lt0 i
  have hi1 : (i 1).val < 2048 := idx2_lt1 i
  have hN : cfg1.N = 8 := N_1
  obtain ⟨t, ht⟩ : ∃ t : Fin cfg1.N, t.val = (i 0).val / 512 := ⟨⟨(i 0).val / 512, by rw [hN]; omega⟩, rfl⟩
  obtain ⟨e0, e1⟩ := idx1_o4 t
  refine ⟨t, flush1_4 t, ?_⟩
  rw [mem_blk1_4]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 2048 ≤ (i 1).val ∧ (i 1).val < win1_4.index t (1 : Fin 2) * 2048 + 2048; rw [e1]; omega

theorem arr1_4_eq (c : Dev nD) : (dat1 (F := Ideal) V c).arrAt 4 cfg1.N = matProd0 (V c main_v1) (V c main_v9) :=
  (dat1 (F := Ideal) V c).arrAt_eq_of_cover 4 (matProd0 (V c main_v1) (V c main_v9)) (fun t _ => flushed1_4_eq V c t) covered1_4

theorem arr1_4_apply (c : Dev nD) (r : Fin 4096) (d : Fin 2048) :
    @Eq EReal ((dat1 (F := Ideal) V c).arrAt 4 cfg1.N (ix2 r d))
      (∑ k : Fin 2048, @HMul.hMul EReal EReal EReal _ (V c main_v1 (ix2 r k)) (V c main_v9 (ix2 k d))) :=
  congrFun (arr1_4_eq V c) (ix2 r d)

theorem flushed1_5_eq (c : Dev nD) (t : Fin cfg1.N) :
    (dat1 (F := Ideal) V c).flushed 5 t = ((cfg1.win 5).blk t).view.read (Elt Ideal) (matProd0 (V c main_v1) (V c main_v11)) := by
  show (cfg1.win 5).cut (grid1.coords t) ((dat1 (F := Ideal) V c).after 5 t) = _
  rw [after1_5]
  unfold out0_5
  rw [View.canon_unit_zero hz0]
  simp only [View.ld_unit_zero (S := S512x2048) hz0, View.ld_unit_zero (S := S2048x2048) hz0]
  obtain ⟨e0, e1⟩ := idx1_o5 t
  funext j
  show k0_pay3 (F := Ideal) (iblk1 V c 0 t) (iblk1 V c 2 t) j = matProd0 (V c main_v1) (V c main_v11) (((cfg1.win 5).blk t).view.emb j)
  refine pay0_3_block (iblk1 V c 0 t) (iblk1 V c 2 t) (V c main_v1) (V c main_v11) t.val
    (fun y i => xblk1_apply V c t y i) (fun y => wblk1_2_apply V c t y) j _ ?_ ?_
  · show win1_5.index t (0 : Fin 2) * 512 + 1 * (j 0).val = t.val * 512 + (j 0).val; rw [e0]; omega
  · show win1_5.index t (1 : Fin 2) * 2048 + 1 * (j 1).val = (j 1).val; rw [e1]; omega

theorem mem_blk1_5 (t : Fin cfg1.N) (i : S4096x2048.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v15_1).slice (win1_5.rect t)).set ↔ _
  rw [View.set_slice_whole, Rect.mem_set_unit]
  exact Iff.rfl

theorem covered1_5 (i : S4096x2048.Idx) :
    ∃ t : Fin cfg1.N, (cfg1.win 5).flush t = true ∧ i ∈ ((cfg1.win 5).blk t).view.set := by
  have hi0 : (i 0).val < 4096 := idx2_lt0 i
  have hi1 : (i 1).val < 2048 := idx2_lt1 i
  have hN : cfg1.N = 8 := N_1
  obtain ⟨t, ht⟩ : ∃ t : Fin cfg1.N, t.val = (i 0).val / 512 := ⟨⟨(i 0).val / 512, by rw [hN]; omega⟩, rfl⟩
  obtain ⟨e0, e1⟩ := idx1_o5 t
  refine ⟨t, flush1_5 t, ?_⟩
  rw [mem_blk1_5]
  intro a
  match a with
  | ⟨0, _⟩ => show win1_5.index t (0 : Fin 2) * 512 ≤ (i 0).val ∧ (i 0).val < win1_5.index t (0 : Fin 2) * 512 + 512; rw [e0, ht]; omega
  | ⟨1, _⟩ => show win1_5.index t (1 : Fin 2) * 2048 ≤ (i 1).val ∧ (i 1).val < win1_5.index t (1 : Fin 2) * 2048 + 2048; rw [e1]; omega

theorem arr1_5_eq (c : Dev nD) : (dat1 (F := Ideal) V c).arrAt 5 cfg1.N = matProd0 (V c main_v1) (V c main_v11) :=
  (dat1 (F := Ideal) V c).arrAt_eq_of_cover 5 (matProd0 (V c main_v1) (V c main_v11)) (fun t _ => flushed1_5_eq V c t) covered1_5

theorem arr1_5_apply (c : Dev nD) (r : Fin 4096) (d : Fin 2048) :
    @Eq EReal ((dat1 (F := Ideal) V c).arrAt 5 cfg1.N (ix2 r d))
      (∑ k : Fin 2048, @HMul.hMul EReal EReal EReal _ (V c main_v1 (ix2 r k)) (V c main_v11 (ix2 k d))) :=
  congrFun (arr1_5_eq V c) (ix2 r d)

theorem flushed1_6_eq (c : Dev nD) (t : Fin cfg1.N) :
    (dat1 (F := Ideal) V c).flushed 6 t = ((cfg1.win 6).blk t).view.read (Elt Ideal) (matProd0 (V c main_v1) (V c main_v13)) := by
  show (cfg1.win 6).cut (grid1.coords t) ((dat1 (F := Ideal) V c).after 6 t) = _
  rw [after1_6]
  unfold out0_6
  rw [View.canon_unit_zero hz0]
  simp only [View.ld_unit_zero (S := S512x2048) hz0, View.ld_unit_zero (S := S2048x2048) hz0]
  obtain ⟨e0, e1⟩ := idx1_o6 t
  funext j
  show k0_pay4 (F := Ideal) (iblk1 V c 0 t) (iblk1 V c 3 t) j = matProd0 (V c main_v1) (V c main_v13) (((cfg1.win 6).blk t).view.emb j)
  refine pay0_4_block (iblk1 V c 0 t) (iblk1 V c 3 t) (V c main_v1) (V c main_v13) t.val
    (fun y i => xblk1_apply V c t y i) (fun y => wblk1_3_apply V c t y) j _ ?_ ?_
  · show win1_6.index t (0 : Fin 2) * 512 + 1 * (j 0).val = t.val * 512 + (j 0).val; rw [e0]; omega
  · show win1_6.index t (1 : Fin 2) * 2048 + 1 * (j 1).val = (j 1).val; rw [e1]; omega

theorem mem_blk1_6 (t : Fin cfg1.N) (i : S4096x2048.Idx) :
    i ∈ ((cfg1.win 6).blk t).view.set ↔ ∀ a : Fin 2, win1_6.index t a * S512x2048.size a ≤ (i a).val ∧ (i a).val < win1_6.index t a * S512x2048.size a + S512x2048.size a := by
  show i ∈ ((View.whole main_v15_2).slice (win1_6.rect t)).set ↔ _
  rw [View.set_slice_whole, Rect.mem_set_unit]
  exact Iff.rfl

theorem covered1_6 (i : S4096x2048.Idx) :
    ∃ t : Fin cfg1.N, (cfg1.win 6).flush t = true ∧ i ∈ ((cfg1.win 6).blk t).view.set := by
  have hi0 : (i 0).val < 4096 := idx2_lt0 i
  have hi1 : (i 1).val < 2048 := idx2_lt1 i
  have hN : cfg1.N = 8 := N_1
  obtain ⟨t, ht⟩ : ∃ t : Fin cfg1.N, t.val = (i 0).val / 512 := ⟨⟨(i 0).val / 512, by rw [hN]; omega⟩, rfl⟩
  obtain ⟨e0, e1⟩ := idx1_o6 t
  refine ⟨t, flush1_6 t, ?_⟩
  rw [mem_blk1_6]
  intro a
  match a with
  | ⟨0, _⟩ => show win1_6.index t (0 : Fin 2) * 512 ≤ (i 0).val ∧ (i 0).val < win1_6.index t (0 : Fin 2) * 512 + 512; rw [e0, ht]; omega
  | ⟨1, _⟩ => show win1_6.index t (1 : Fin 2) * 2048 ≤ (i 1).val ∧ (i 1).val < win1_6.index t (1 : Fin 2) * 2048 + 2048; rw [e1]; omega

theorem arr1_6_eq (c : Dev nD) : (dat1 (F := Ideal) V c).arrAt 6 cfg1.N = matProd0 (V c main_v1) (V c main_v13) :=
  (dat1 (F := Ideal) V c).arrAt_eq_of_cover 6 (matProd0 (V c main_v1) (V c main_v13)) (fun t _ => flushed1_6_eq V c t) covered1_6

theorem arr1_6_apply (c : Dev nD) (r : Fin 4096) (d : Fin 2048) :
    @Eq EReal ((dat1 (F := Ideal) V c).arrAt 6 cfg1.N (ix2 r d))
      (∑ k : Fin 2048, @HMul.hMul EReal EReal EReal _ (V c main_v1 (ix2 r k)) (V c main_v13 (ix2 k d))) :=
  congrFun (arr1_6_eq V c) (ix2 r d)

end Cert.KernelIdeal.Hand

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (a b : Nat) : Type := (⟨2, ![a, b]⟩ : Shape).Idx → EReal

abbrev Words (a : Nat) : Type := (⟨1, ![a]⟩ : Shape).Idx → BitVec 32

def negBig : EReal := ((-2147483648 : ℝ) : EReal)

-- A linear layer without bias: x · wᵀ.
def proj (x : Arr2 4096 2048) (w : Arr2 2048 2048) (r : Fin 4096) (d : Fin 2048) : EReal :=
  ∑ k : Fin 2048, x (ix2 r k) * w (ix2 d k)

def visible (lens : Words 4096) (r j : Fin 4096) : Prop := (BitVec.ofNat 32 j.val).slt (lens (ix1 r)) = true

instance (lens : Words 4096) (r j : Fin 4096) : Decidable (visible lens r j) := by unfold visible; infer_instance

-- q_r · k_j where key j lies below row r's length, −2³¹ elsewhere.
def logit (q k : Fin 4096 → Fin 2048 → EReal) (lens : Words 4096) (r j : Fin 4096) : EReal :=
  if visible lens r j then ∑ c : Fin 2048, q r c * k j c else negBig

-- Softmax over the keys at the shift sh r, times the values.
def attn (q k v : Fin 4096 → Fin 2048 → EReal) (lens : Words 4096) (sh : Fin 4096 → EReal) (r : Fin 4096) (d : Fin 2048) : EReal :=
  ∑ j : Fin 4096, Ideal.div (Ideal.exp (logit q k lens r j - sh r)) (∑ j' : Fin 4096, Ideal.exp (logit q k lens r j' - sh r)) * v j d

-- The same with the normaliser taken out of the sum: a running accumulator times the reciprocal of a running normaliser.
def attnAcc (q k v : Fin 4096 → Fin 2048 → EReal) (lens : Words 4096) (sh : Fin 4096 → EReal) (r : Fin 4096) (d : Fin 2048) : EReal :=
  (∑ j : Fin 4096, Ideal.exp (logit q k lens r j - sh r) * v j d) * Ideal.div 1 (∑ j : Fin 4096, Ideal.exp (logit q k lens r j - sh r))

end Cert.Spec

end
-- ==== Proof.KI.Carry.lean ====
import proofs.«404947_j13649406066966_2_alg».proof.Proof.KI.HostRead
import proofs.«404947_j13649406066966_2_alg».proof.Proof.KI.ProjValue0
import proofs.«404947_j13649406066966_2_alg».proof.Proof.KI.ProjValue1
import proofs.«404947_j13649406066966_2_alg».proof.Proof.LibKeepdims
import proofs.«404947_j13649406066966_2_alg».proof.Proof.Spec

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx Idealize.ShloMosaic.Keepdims

variable (m : (ℓ : Loc nD τ sig) → Buf (Elt Ideal) ℓ) (ρ : Dev nD → PrngReg)

theorem W2_main_v14_0_apply (c : Dev nD) (R : Fin 4096) (cc : Fin 2048) :
    @Eq EReal (W2 (F := Ideal) m ρ c (Proc.devRef .tc main_v14_0) (ix2 R cc)) (proj (m ((c : Thread nD τ).loc main_arg0)) (m ((c : Thread nD τ).loc main_arg2)) R cc) := by
  have h1 : @Eq EReal (W2 (F := Ideal) m ρ c (Proc.devRef .tc main_v14_0) (ix2 R cc)) ((dat0 (F := Ideal) (V1 m ρ) c).arrAt 4 cfg0.N (ix2 R cc)) :=
    congrFun (W2_arr m ρ c 4) (ix2 R cc)
  rw [h1, arr0_4_apply]; unfold proj
  exact Finset.sum_congr rfl fun k _ => by rw [V1_main_v0_apply, V1_main_v3_apply]

theorem W2_main_v14_1_apply (c : Dev nD) (R : Fin 4096) (cc : Fin 2048) :
    @Eq EReal (W2 (F := Ideal) m ρ c (Proc.devRef .tc main_v14_1) (ix2 R cc)) (proj (m ((c : Thread nD τ).loc main_arg0)) (m ((c : Thread nD τ).loc main_arg3)) R cc) := by
  have h1 : @Eq EReal (W2 (F := Ideal) m ρ c (Proc.devRef .tc main_v14_1) (ix2 R cc)) ((dat0 (F := Ideal) (V1 m ρ) c).arrAt 5 cfg0.N (ix2 R cc)) :=
    congrFun (W2_arr m ρ c 5) (ix2 R cc)
  rw [h1, arr0_5_apply]; unfold proj
  exact Finset.sum_congr rfl fun k _ => by rw [V1_main_v0_apply, V1_main_v5_apply]

theorem W2_main_v14_2_apply (c : Dev nD) (R : Fin 4096) (cc : Fin 2048) :
    @Eq EReal (W2 (F := Ideal) m ρ c (Proc.devRef .tc main_v14_2) (ix2 R cc)) (proj (m ((c : Thread nD τ).loc main_arg0)) (m ((c : Thread nD τ).loc main_arg4)) R cc) := by
  have h1 : @Eq EReal (W2 (F := Ideal) m ρ c (Proc.devRef .tc main_v14_2) (ix2 R cc)) ((dat0 (F := Ideal) (V1 m ρ) c).arrAt 6 cfg0.N (ix2 R cc)) :=
    congrFun (W2_arr m ρ c 6) (ix2 R cc)
  rw [h1, arr0_6_apply]; unfold proj
  exact Finset.sum_congr rfl fun k _ => by rw [V1_main_v0_apply, V1_main_v7_apply]

theorem W3_main_v15_0_apply (c : Dev nD) (R : Fin 4096) (cc : Fin 2048) :
    @Eq EReal (W3 (F := Ideal) m ρ c (Proc.devRef .tc main_v15_0) (ix2 R cc)) (proj (m ((c : Thread nD τ).loc main_arg1)) (m ((c : Thread nD τ).loc main_arg5)) R cc) := by
  have h1 : @Eq EReal (W3 (F := Ideal) m ρ c (Proc.devRef .tc main_v15_0) (ix2 R cc)) ((dat1 (F := Ideal) (V2 m ρ) c).arrAt 4 cfg1.N (ix2 R cc)) :=
    congrFun (W3_arr m ρ c 4) (ix2 R cc)
  rw [h1, arr1_4_apply]; unfold proj
  refine Finset.sum_congr rfl fun k _ => ?_
  have e1 : @Eq EReal (V2 (F := Ideal) m ρ c main_v1 (ix2 R k)) (V1 (F := Ideal) m ρ c main_v1 (ix2 R k)) := congrFun (W2_of_ne m ρ c main_v1 (by decide)) (ix2 R k)
  have e2 : @Eq EReal (V2 (F := Ideal) m ρ c main_v9 (ix2 k cc)) (V1 (F := Ideal) m ρ c main_v9 (ix2 k cc)) := congrFun (W2_of_ne m ρ c main_v9 (by decide)) (ix2 k cc)
  rw [e1, e2, V1_main_v1_apply, V1_main_v9_apply]

theorem W3_main_v15_1_apply (c : Dev nD) (R : Fin 4096) (cc : Fin 2048) :
    @Eq EReal (W3 (F := Ideal) m ρ c (Proc.devRef .tc main_v15_1) (ix2 R cc)) (proj (m ((c : Thread nD τ).loc main_arg1)) (m ((c : Thread nD τ).loc main_arg6)) R cc) := by
  have h1 : @Eq EReal (W3 (F := Ideal) m ρ c (Proc.devRef .tc main_v15_1) (ix2 R cc)) ((dat1 (F := Ideal) (V2 m ρ) c).arrAt 5 cfg1.N (ix2 R cc)) :=
    congrFun (W3_arr m ρ c 5) (ix2 R cc)
  rw [h1, arr1_5_apply]; unfold proj
  refine Finset.sum_congr rfl fun k _ => ?_
  have e1 : @Eq EReal (V2 (F := Ideal) m ρ c main_v1 (ix2 R k)) (V1 (F := Ideal) m ρ c main_v1 (ix2 R k)) := congrFun (W2_of_ne m ρ c main_v1 (by decide)) (ix2 R k)
  have e2 : @Eq EReal (V2 (F := Ideal) m ρ c main_v11 (ix2 k cc)) (V1 (F := Ideal) m ρ c main_v11 (ix2 k cc)) := congrFun (W2_of_ne m ρ c main_v11 (by decide)) (ix2 k cc)
  rw [e1, e2, V1_main_v1_apply, V1_main_v11_apply]

theorem W3_main_v15_2_apply (c : Dev nD) (R : Fin 4096) (cc : Fin 2048) :
    @Eq EReal (W3 (F := Ideal) m ρ c (Proc.devRef .tc main_v15_2) (ix2 R cc)) (proj (m ((c : Thread nD τ).loc main_arg1)) (m ((c : Thread nD τ).loc main_arg7)) R cc) := by
  have h1 : @Eq EReal (W3 (F := Ideal) m ρ c (Proc.devRef .tc main_v15_2) (ix2 R cc)) ((dat1 (F := Ideal) (V2 m ρ) c).arrAt 6 cfg1.N (ix2 R cc)) :=
    congrFun (W3_arr m ρ c 6) (ix2 R cc)
  rw [h1, arr1_6_apply]; unfold proj
  refine Finset.sum_congr rfl fun k _ => ?_
  have e1 : @Eq EReal (V2 (F := Ideal) m ρ c main_v1 (ix2 R k)) (V1 (F := Ideal) m ρ c main_v1 (ix2 R k)) := congrFun (W2_of_ne m ρ c main_v1 (by decide)) (ix2 R k)
  have e2 : @Eq EReal (V2 (F := Ideal) m ρ c main_v13 (ix2 k cc)) (V1 (F := Ideal) m ρ c main_v13 (ix2 k cc)) := congrFun (W2_of_ne m ρ c main_v13 (by decide)) (ix2 k cc)
  rw [e1, e2, V1_main_v1_apply, V1_main_v13_apply]

theorem W3_keeps (c : Dev nD) (b : Ref sig .tc) (hb : ∀ w, Pipeline.arrRef spec1 w ≠ b) :
    W3 (F := Ideal) m ρ c (Proc.devRef .tc b) = W2 (F := Ideal) m ρ c (Proc.devRef .tc b) := W3_of_ne m ρ c b hb

theorem W4_keeps (c : Dev nD) (b : Ref sig .tc) (hb : b ∉ hostOps2_W) :
    W4 (F := Ideal) m ρ c (Proc.devRef .tc b) = W3 (F := Ideal) m ρ c (Proc.devRef .tc b) :=
  StableHlo.after_of_writes_sub hostOps2 _ hostOps2_writes hb

theorem W4_main_v16_apply (c : Dev nD) (R : Fin 4096) :
    @Eq (BitVec 32) (W4 (F := Ideal) m ρ c (Proc.devRef .tc main_v16) (ix2 R (0 : Fin 1))) (m ((c : Thread nD τ).loc main_arg8) (ix1 R)) := by
  have e : @Eq (IVec S4096x1 32) (W4 (F := Ideal) m ρ c (Proc.devRef .tc main_v16))
      (shapeCast S4096x1 (show IVec S4096 32 from W3 (F := Ideal) m ρ c (Proc.devRef .tc main_arg8)) shapeCasts_S4096_S4096x1) := by
    show StableHlo.after hostOps2 (W3 m ρ c) (Proc.devRef .tc main_v16) = _
    after_results
    rfl
  refine (congrFun e (ix2 R (0 : Fin 1))).trans ?_
  refine (shapeCast_a_a1_apply _ shapeCasts_S4096_S4096x1 R (0 : Fin 1)).trans ?_
  have h8 : W3 (F := Ideal) m ρ c (Proc.devRef .tc main_arg8) = m ((c : Thread nD τ).loc main_arg8) :=
    calc W3 m ρ c (Proc.devRef .tc main_arg8)
      _ = W2 m ρ c (Proc.devRef .tc main_arg8) := W3_of_ne m ρ c main_arg8 (by decide)
      _ = W1 m ρ c (Proc.devRef .tc main_arg8) := W2_of_ne m ρ c main_arg8 (by decide)
      _ = W0 m ρ c (Proc.devRef .tc main_arg8) := StableHlo.after_of_writes_sub hostOps0 _ hostOps0_writes (r := main_arg8) (by decide)
      _ = m ((c : Thread nD τ).loc main_arg8) := rfl
  exact congrFun h8 (ix1 R)

end Cert.KernelIdeal.Hand

end
-- ==== Proof.KI.FlashPieces2.lean ====
import proofs.«404947_j13649406066966_2_alg».proof.Proof.KI.FlashRegion2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zero_offsets : (![0, 0] : Fin 2 → Nat) = fun _ => 0 := funext fun a => by fin_cases a <;> rfl

section

variable (c : Dev nD) (i : grid2.Coords) (arg2 : Memref sig .tc .vmem S1024x2048 .f32) (harg2 : arg2.IsWhole) (arg3 : Memref sig .tc .vmem S512x2048 .f32) (harg3 : arg3.IsWhole)
  (arg4 : Memref sig .tc .vmem S512x2048 .bf16) (harg4 : arg4.IsWhole) (arg5 : Memref sig .tc .vmem S1024x1 .i32) (harg5 : arg5.IsWhole) (arg6 : Memref sig .tc .vmem S1024x2048 .f32) (harg6 : arg6.IsWhole)
  (arg7 : Memref sig .tc .vmem S1024x1 .f32) (harg7 : arg7.IsWhole) (arg8 : Memref sig .tc .vmem S1024x1 .f32) (harg8 : arg8.IsWhole) (arg9 : Memref sig .tc .vmem S1024x2048 .f32) (harg9 : arg9.IsWhole)

theorem sout2_A_0_eq (hc0 : cond2_0 i) (hc1 : ¬cond2_1 i)
    (x0 : Vec F S1024x2048 .f32) (x1 : Vec F S512x2048 .f32) (x2 : Vec F S512x2048 .bf16) (x3 : Vec F S1024x1 .i32) :
    sout2_A_0 c i arg2 harg2 arg3 harg3 arg4 harg4 arg5 harg5 arg6 harg6 arg7 harg7 arg8 harg8 arg9 harg9 hc0 hc1 x0 x1 x2 x3 = k2_pay2 (k2_pay8 i x0 x1 x3 k2_pay4) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1024x1) zero_offsets]
  simp only [View.readAt_eq_ld, harg2.read_unread, harg3.read_unread, harg5.read_unread, View.ld_unit_zero (S := S1024x2048) zero_offsets, View.ld_unit_zero (S := S512x2048) zero_offsets, View.ld_unit_zero (S := S1024x1) zero_offsets, View.readCov_unit_zero (S := S1024x1) _ zero_offsets, View.readCov_unit_zero (S := S1024x2048) _ zero_offsets]

theorem sout2_A_1_eq (hc0 : cond2_0 i) (hc1 : ¬cond2_1 i)
    (x0 : Vec F S1024x2048 .f32) (x1 : Vec F S512x2048 .f32) (x2 : Vec F S512x2048 .bf16) (x3 : Vec F S1024x1 .i32) :
    sout2_A_1 c i arg2 harg2 arg3 harg3 arg4 harg4 arg5 harg5 arg6 harg6 arg7 harg7 arg8 harg8 arg9 harg9 hc0 hc1 x0 x1 x2 x3 = k2_pay11 i x0 x1 x3 k2_pay4 k2_pay4 k2_pay5 := by
  unfold sout2_A_1
  rw [View.read_writes_eq_canon _ _ _ (scover2_A_1 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1024x1) zero_offsets]
  simp only [View.readAt_eq_ld, harg2.read_unread, harg3.read_unread, harg5.read_unread, View.ld_unit_zero (S := S1024x2048) zero_offsets, View.ld_unit_zero (S := S512x2048) zero_offsets, View.ld_unit_zero (S := S1024x1) zero_offsets, View.readCov_unit_zero (S := S1024x1) _ zero_offsets, View.readCov_unit_zero (S := S1024x2048) _ zero_offsets]

theorem sout2_A_2_eq (hc0 : cond2_0 i) (hc1 : ¬cond2_1 i)
    (x0 : Vec F S1024x2048 .f32) (x1 : Vec F S512x2048 .f32) (x2 : Vec F S512x2048 .bf16) (x3 : Vec F S1024x1 .i32) :
    sout2_A_2 c i arg2 harg2 arg3 harg3 arg4 harg4 arg5 harg5 arg6 harg6 arg7 harg7 arg8 harg8 arg9 harg9 hc0 hc1 x0 x1 x2 x3 = k2_pay1 (k2_pay9 i x0 x1 x3 k2_pay4 k2_pay4) (k2_pay10 i x0 x1 x3 k2_pay4) x2 k2_pay6 := by
  unfold sout2_A_2
  rw [View.read_writes_eq_canon _ _ _ (scover2_A_2 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1024x2048) zero_offsets]
  simp only [View.readAt_eq_ld, harg2.read_unread, harg3.read_unread, harg4.read_unread, harg5.read_unread, View.ld_unit_zero (S := S1024x2048) zero_offsets, View.ld_unit_zero (S := S512x2048) zero_offsets, View.ld_unit_zero (S := S1024x1) zero_offsets, View.readCov_unit_zero (S := S1024x1) _ zero_offsets, View.readCov_unit_zero (S := S1024x2048) _ zero_offsets]

theorem sout2_B_0_eq (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_B_0 c i arg2 harg2 arg3 harg3 arg4 harg4 arg5 harg5 arg6 harg6 arg7 harg7 arg8 harg8 arg9 harg9 hc0 hc1 x0 x1 x2 x3 xs0 xs1 xs2 = k2_pay2 (k2_pay8 i x0 x1 x3 xs0) := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_unit_zero zero_offsets]
  simp only [View.readAt_eq_ld, harg2.read_unread, harg3.read_unread, harg5.read_unread, harg7.read_unread, View.ld_unit_zero (S := S1024x2048) zero_offsets, View.ld_unit_zero (S := S512x2048) zero_offsets, View.ld_unit_zero (S := S1024x1) zero_offsets]

theorem sout2_B_1_eq (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_B_1 c i arg2 harg2 arg3 harg3 arg4 harg4 arg5 harg5 arg6 harg6 arg7 harg7 arg8 harg8 arg9 harg9 hc0 hc1 x0 x1 x2 x3 xs0 xs1 xs2 = k2_pay11 i x0 x1 x3 xs0 xs0 xs1 := by
  unfold sout2_B_1
  rw [View.read_writes_eq_canon _ _ _ (scover2_B_1 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_unit_zero zero_offsets]
  simp only [View.readAt_eq_ld, harg2.read_unread, harg3.read_unread, harg5.read_unread, harg7.read_unread, harg8.read_unread, View.ld_unit_zero (S := S1024x2048) zero_offsets, View.ld_unit_zero (S := S512x2048) zero_offsets, View.ld_unit_zero (S := S1024x1) zero_offsets]

theorem sout2_B_2_eq (hc0 : ¬cond2_0 i) (hc1 : ¬cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_B_2 c i arg2 harg2 arg3 harg3 arg4 harg4 arg5 harg5 arg6 harg6 arg7 harg7 arg8 harg8 arg9 harg9 hc0 hc1 x0 x1 x2 x3 xs0 xs1 xs2 = k2_pay1 (k2_pay9 i x0 x1 x3 xs0 xs0) (k2_pay10 i x0 x1 x3 xs0) x2 xs2 := by
  unfold sout2_B_2
  rw [View.read_writes_eq_canon _ _ _ (scover2_B_2 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_unit_zero zero_offsets]
  simp only [View.readAt_eq_ld, harg2.read_unread, harg3.read_unread, harg4.read_unread, harg5.read_unread, harg7.read_unread, harg9.read_unread, View.ld_unit_zero (S := S1024x2048) zero_offsets, View.ld_unit_zero (S := S512x2048) zero_offsets, View.ld_unit_zero (S := S1024x1) zero_offsets]

theorem sout2_C_0_eq (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_C_0 c i arg2 harg2 arg3 harg3 arg4 harg4 arg5 harg5 arg6 harg6 arg7 harg7 arg8 harg8 arg9 harg9 hc0 hc1 x0 x1 x2 x3 xs0 xs1 xs2 = k2_pay2 (k2_pay8 i x0 x1 x3 xs0) := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 xs0 xs1 xs2)]
  unfold kernelRun2_C
  dsimp only
  sl_unfold_words
  rw [View.canon_unit_zero zero_offsets]
  simp only [View.readAt_eq_ld, harg2.read_unread, harg3.read_unread, harg5.read_unread, harg7.read_unread, View.ld_unit_zero (S := S1024x2048) zero_offsets, View.ld_unit_zero (S := S512x2048) zero_offsets, View.ld_unit_zero (S := S1024x1) zero_offsets]

theorem sout2_C_1_eq (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_C_1 c i arg2 harg2 arg3 harg3 arg4 harg4 arg5 harg5 arg6 harg6 arg7 harg7 arg8 harg8 arg9 harg9 hc0 hc1 x0 x1 x2 x3 xs0 xs1 xs2 = k2_pay11 i x0 x1 x3 xs0 xs0 xs1 := by
  unfold sout2_C_1
  rw [View.read_writes_eq_canon _ _ _ (scover2_C_1 c i arg2 harg2 arg3 harg3 arg4 harg4 arg5 harg5 arg6 harg6 arg7 harg7 arg8 harg8 arg9 harg9 hc0 hc1 x0 x1 x2 x3 xs0 xs1 xs2)]
  unfold kernelRun2_C
  dsimp only
  sl_unfold_words
  rw [View.canon_unit_zero zero_offsets]
  simp only [View.readAt_eq_ld, harg2.read_unread, harg3.read_unread, harg5.read_unread, harg7.read_unread, harg8.read_unread, View.ld_unit_zero (S := S1024x2048) zero_offsets, View.ld_unit_zero (S := S512x2048) zero_offsets, View.ld_unit_zero (S := S1024x1) zero_offsets]

theorem sout2_C_2_eq (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    sout2_C_2 c i arg2 harg2 arg3 harg3 arg4 harg4 arg5 harg5 arg6 harg6 arg7 harg7 arg8 harg8 arg9 harg9 hc0 hc1 x0 x1 x2 x3 xs0 xs1 xs2 = k2_pay1 (k2_pay9 i x0 x1 x3 xs0 xs0) (k2_pay10 i x0 x1 x3 xs0) x2 xs2 := by
  unfold sout2_C_2
  rw [View.read_writes_eq_canon _ _ _ (scover2_C_2 c i arg2 harg2 arg3 harg3 arg4 harg4 arg5 harg5 arg6 harg6 arg7 harg7 arg8 harg8 arg9 harg9 hc0 hc1 x0 x1 x2 x3 xs0 xs1 xs2)]
  unfold kernelRun2_C
  dsimp only
  sl_unfold_words
  rw [View.canon_unit_zero zero_offsets]
  simp only [View.readAt_eq_ld, harg2.read_unread, harg3.read_unread, harg4.read_unread, harg5.read_unread, harg7.read_unread, harg9.read_unread, View.ld_unit_zero (S := S1024x2048) zero_offsets, View.ld_unit_zero (S := S512x2048) zero_offsets, View.ld_unit_zero (S := S1024x1) zero_offsets]

theorem out2_C_4_eq (hc0 : ¬cond2_0 i) (hc1 : cond2_1 i)
    (x0 : Vec F S1024x2048 .f32) (x1 : Vec F S512x2048 .f32) (x2 : Vec F S512x2048 .bf16) (x3 : Vec F S1024x1 .i32) (xs0 : Vec F S1024x1 .f32) (xs1 : Vec F S1024x1 .f32) (xs2 : Vec F S1024x2048 .f32) :
    out2_C_4 c i arg2 harg2 arg3 harg3 arg4 harg4 arg5 harg5 arg6 harg6 arg7 harg7 arg8 harg8 arg9 harg9 hc0 hc1 x0 x1 x2 x3 xs0 xs1 xs2 = k2_pay3 (k2_pay1 (k2_pay9 i x0 x1 x3 xs0 xs0) (k2_pay10 i x0 x1 x3 xs0) x2 xs2) (k2_pay11 i x0 x1 x3 xs0 xs0 xs1) := by
  unfold out2_C_4
  rw [View.read_writes_eq_canon _ _ _ (cover2_C_4 c i arg2 harg2 arg3 harg3 arg4 harg4 arg5 harg5 arg6 harg6 arg7 harg7 arg8 harg8 arg9 harg9 hc0 hc1 x0 x1 x2 x3 xs0 xs1 xs2)]
  unfold kernelRun2_C
  dsimp only
  sl_unfold_words
  rw [View.canon_unit_zero zero_offsets]
  simp only [View.readAt_eq_ld, harg2.read_unread, harg3.read_unread, harg4.read_unread, harg5.read_unread, harg7.read_unread, harg8.read_unread, harg9.read_unread, View.ld_unit_zero (S := S1024x2048) zero_offsets, View.ld_unit_zero (S := S512x2048) zero_offsets, View.ld_unit_zero (S := S1024x1) zero_offsets, View.readCov_unit_zero (S := S1024x1) _ zero_offsets, View.readCov_unit_zero (S := S1024x2048) _ zero_offsets]

end

end Cert.KernelIdeal.Hand

end
-- ==== Proof.KI.FlashBlock.lean ====
import proofs.«404947_j13649406066966_2_alg».proof.Proof.Gen.KernelIdeal.Skeleton
import proofs.«404947_j13649406066966_2_alg».proof.Proof.Spec
import Idealize.ShloMosaic.PureOps.Ideal.Laws
import Idealize.ShloMosaic.Lib.ValueIdx
import Mathlib.Data.Finset.Fold
import Mathlib.Data.EReal.Basic

noncomputable section

namespace Cert.KernelIdeal.Hand

open Cert.KernelIdeal Cert.KernelIdeal.Gen Cert.Spec Idealize.ShloMosaic Idealize.ShloMosaic.ValueIdx

theorem ofBits_negBig : Ideal.ofBits .f32 0xCF000000#32 = negBig := by
  unfold negBig
  simp [Ideal.ofBits, Ideal.ieee, -EReal.coe_mul]; norm_num

theorem ofBits_negInf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

theorem key_word (kv : ℕ) (hkv : kv < 8) (j : Fin 512) :
    BitVec.ofNat 32 kv * 512#32 + BitVec.ofNat 32 j.val = BitVec.ofNat 32 (512 * kv + j.val) := by
  rw [Nat.mul_comm 512 kv, BitVec.ofNat_add, BitVec.ofNat_mul]

def sblk (kv : ℕ) (q : Vec Ideal S1024x2048 .f32) (k : Vec Ideal S512x2048 .f32) (lens : Vec Ideal S1024x1 .i32)
    (r : Fin 1024) (j : Fin 512) : EReal :=
  if (BitVec.ofNat 32 kv * 512#32 + BitVec.ofNat 32 j.val).slt (lens (ix2 r 0)) = true
    then ∑ c : Fin 2048, q (ix2 r c) * k (ix2 j c) else negBig

def blockMax (kv : ℕ) (q : Vec Ideal S1024x2048 .f32) (k : Vec Ideal S512x2048 .f32) (lens : Vec Ideal S1024x1 .i32)
    (r : Fin 1024) : EReal :=
  (Finset.univ : Finset (Fin 512)).fold max ⊥ (fun j => sblk kv q k lens r j)

theorem fold_max_real {J : Type} (s : Finset J) (hs : s.Nonempty) (f : J → EReal)
    (hf : ∀ k, ∃ y : ℝ, f k = (y : EReal)) : ∃ y : ℝ, s.fold max (⊥ : EReal) f = (y : EReal) := by
  have htop : s.fold max (⊥ : EReal) f ≠ ⊤ := by
    refine ne_of_lt ((Finset.fold_max_lt _).2 ⟨bot_lt_top, fun k _ => ?_⟩)
    obtain ⟨y, hy⟩ := hf k; rw [hy]; exact EReal.coe_lt_top y
  have hbot : s.fold max (⊥ : EReal) f ≠ ⊥ := by
    obtain ⟨k, hk⟩ := hs
    refine ne_of_gt ((Finset.lt_fold_max _).2 (Or.inr ⟨k, hk, ?_⟩))
    obtain ⟨y, hy⟩ := hf k; rw [hy]; exact EReal.bot_lt_coe y
  exact ⟨_, (EReal.coe_toReal htop hbot).symm⟩

theorem blockMax_real (kv : ℕ) (q : Vec Ideal S1024x2048 .f32) (k : Vec Ideal S512x2048 .f32) (lens : Vec Ideal S1024x1 .i32)
    (r : Fin 1024) (h : ∀ j, ∃ y : ℝ, sblk kv q k lens r j = (y : EReal)) :
    ∃ y : ℝ, blockMax kv q k lens r = (y : EReal) :=
  fold_max_real Finset.univ ⟨0, Finset.mem_univ _⟩ _ h

theorem multiReduction_max_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have hf : (src ∘ h.lift (ix1 p)) = fun k : Fin b => src (ix2 p k) := funext fun k => congrArg src (by
    funext ax
    match ax with
    | ⟨0, _⟩ => rfl
    | ⟨1, _⟩ => rfl)
  exact congrArg (fun f => Finset.fold max (Ideal.ofBits φ acc) f (Finset.univ : Finset (Fin b))) hf

theorem qk_lhs_0 (i : S1024x512.Idx) (c : dot_S1024x2048_S512x2048_S1024x512_1_1_0_0_n_n.contr.Idx) :
    (dot_S1024x2048_S512x2048_S1024x512_1_1_0_0_n_n.lhsIdx i c 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem qk_lhs_1 (i : S1024x512.Idx) (c : dot_S1024x2048_S512x2048_S1024x512_1_1_0_0_n_n.contr.Idx) :
    (dot_S1024x2048_S512x2048_S1024x512_1_1_0_0_n_n.lhsIdx i c 1).val = (c ⟨0, by decide⟩).val :=
  dot_S1024x2048_S512x2048_S1024x512_1_1_0_0_n_n.lhsIdx_val_of_single rfl i c
theorem qk_rhs_0 (i : S1024x512.Idx) (c : dot_S1024x2048_S512x2048_S1024x512_1_1_0_0_n_n.contr.Idx) :
    (dot_S1024x2048_S512x2048_S1024x512_1_1_0_0_n_n.rhsIdx i c 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem qk_rhs_1 (i : S1024x512.Idx) (c : dot_S1024x2048_S512x2048_S1024x512_1_1_0_0_n_n.contr.Idx) :
    (dot_S1024x2048_S512x2048_S1024x512_1_1_0_0_n_n.rhsIdx i c 1).val = (c ⟨0, by decide⟩).val :=
  dot_S1024x2048_S512x2048_S1024x512_1_1_0_0_n_n.rhsIdx_val_of_single rfl i c

theorem qk_apply (prec : Option ContractPrecision) (x : FVec Ideal S1024x2048 .f32) (y : FVec Ideal S512x2048 .f32)
    (r : Fin 1024) (j : Fin 512) :
    FloatOps.matmul dot_S1024x2048_S512x2048_S1024x512_1_1_0_0_n_n prec x y (constant S1024x512 .f32 0x00000000#32) (ix2 r j)
      = ∑ c : Fin 2048, x (ix2 r c) * y (ix2 j c) := by
  rw [Ideal.matmul_constant_zero_apply, ← Equiv.sum_comp (contrEquiv1 dot_S1024x2048_S512x2048_S1024x512_1_1_0_0_n_n 2048 rfl rfl).symm]
  refine Finset.sum_congr rfl fun c _ => ?_
  have hc := contrEquiv1_symm_val dot_S1024x2048_S512x2048_S1024x512_1_1_0_0_n_n 2048 rfl rfl c
  have el : dot_S1024x2048_S512x2048_S1024x512_1_1_0_0_n_n.lhsIdx (ix2 r j) ((contrEquiv1 dot_S1024x2048_S512x2048_S1024x512_1_1_0_0_n_n 2048 rfl rfl).symm c) = ix2 r c := funext fun a => Fin.ext (by
    match a with
    | ⟨0, _⟩ => exact qk_lhs_0 _ _
    | ⟨1, _⟩ => exact (qk_lhs_1 _ _).trans hc)
  have er : dot_S1024x2048_S512x2048_S1024x512_1_1_0_0_n_n.rhsIdx (ix2 r j) ((contrEquiv1 dot_S1024x2048_S512x2048_S1024x512_1_1_0_0_n_n 2048 rfl rfl).symm c) = ix2 j c := funext fun a => Fin.ext (by
    match a with
    | ⟨0, _⟩ => exact qk_rhs_0 _ _
    | ⟨1, _⟩ => exact (qk_rhs_1 _ _).trans hc)
  rw [el, er]

end Cert.KernelIdeal.Hand

end
-- ==== Proof.KI.FlashPay2.lean ====
import proofs.«404947_j13649406066966_2_alg».proof.Proof.Gen.KernelIdeal.Skeleton
import proofs.«404947_j13649406066966_2_alg».proof.Proof.Spec
import proofs.«404947_j13649406066966_2_alg».proof.Proof.LibKeepdims
import proofs.«404947_j13649406066966_2_alg».proof.Proof.KI.FlashBlock
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Cert.Spec Idealize.ShloMosaic Idealize.ShloMosaic.ValueIdx Idealize.ShloMosaic.Keepdims

theorem k2_pay7_apply (i : grid2.Coords) (q : Vec Ideal S1024x2048 .f32) (k : Vec Ideal S512x2048 .f32) (lens : Vec Ideal S1024x1 .i32) (r : Fin 1024) (j : Fin 512) :
    k2_pay7 (F := Ideal) i q k lens (ix2 r j) = sblk (i 1).val q k lens r j := by
  unfold k2_pay7 sblk
  simp only [shapeCast_self, matmul]
  rw [select_apply, qk_apply, broadcast_apply]
  show Scalar.select (BitVec.ofBool ((BitVec.ofNat 32 (i 1).val * 512#32 + BitVec.ofNat 32 (0 * 512 + j.val)).slt
      (broadcastTo S1024x512 lens broadcasts_S1024x1_S1024x512 (ix2 r j)))) _ (Ideal.ofBits .f32 0xCF000000#32) = _
  rw [Nat.zero_mul, Nat.zero_add, broadcastTo_a1_ab_apply lens _ r j, ofBits_negBig]
  by_cases h : (BitVec.ofNat 32 (i 1).val * 512#32 + BitVec.ofNat 32 j.val).slt (lens (ix2 r 0)) = true
  · rw [if_pos h, h]; exact select_one _ _
  · rw [if_neg h, Bool.eq_false_iff.2 h]; exact select_zero _ _

theorem k2_pay8_apply (i : grid2.Coords) (q : Vec Ideal S1024x2048 .f32) (k : Vec Ideal S512x2048 .f32) (lens : Vec Ideal S1024x1 .i32) (m : Vec Ideal S1024x1 .f32) (r : Fin 1024) :
    k2_pay8 (F := Ideal) i q k lens m (ix2 r 0) = max (m (ix2 r 0)) (blockMax (i 1).val q k lens r) := by
  unfold k2_pay8 blockMax
  dsimp only
  rw [maximumf_apply, shapeCast_a_a1_apply _ _ r 0]
  refine congrArg (max (m (ix2 r 0))) ((multiReduction_max_rows _ _ _ _ _ r).trans ?_)
  rw [ofBits_negInf]
  exact congrArg (fun f => Finset.fold max ⊥ f Finset.univ) (funext fun j => k2_pay7_apply i q k lens r j)

theorem k2_pay9_apply (i : grid2.Coords) (q : Vec Ideal S1024x2048 .f32) (k : Vec Ideal S512x2048 .f32) (lens : Vec Ideal S1024x1 .i32) (m m' : Vec Ideal S1024x1 .f32) (r : Fin 1024) :
    k2_pay9 (F := Ideal) i q k lens m m' (ix2 r 0)
      = Ideal.exp (m' (ix2 r 0) - k2_pay8 (F := Ideal) i q k lens m (ix2 r 0)) := by
  unfold k2_pay9
  rfl

theorem k2_pay10_apply (i : grid2.Coords) (q : Vec Ideal S1024x2048 .f32) (k : Vec Ideal S512x2048 .f32) (lens : Vec Ideal S1024x1 .i32) (m : Vec Ideal S1024x1 .f32) (r : Fin 1024) (j : Fin 512) :
    k2_pay10 (F := Ideal) i q k lens m (ix2 r j)
      = Ideal.exp (sblk (i 1).val q k lens r j - k2_pay8 (F := Ideal) i q k lens m (ix2 r 0)) := by
  unfold k2_pay10
  show Ideal.exp (k2_pay7 (F := Ideal) i q k lens (ix2 r j)
      - broadcastTo S1024x512 (k2_pay8 (F := Ideal) i q k lens m) broadcasts_S1024x1_S1024x512 (ix2 r j)) = _
  rw [k2_pay7_apply, broadcastTo_a1_ab_apply _ _ r j]

theorem k2_pay11_apply (i : grid2.Coords) (q : Vec Ideal S1024x2048 .f32) (k : Vec Ideal S512x2048 .f32) (lens : Vec Ideal S1024x1 .i32) (m m' l : Vec Ideal S1024x1 .f32) (r : Fin 1024) :
    k2_pay11 (F := Ideal) i q k lens m m' l (ix2 r 0)
      = k2_pay9 (F := Ideal) i q k lens m m' (ix2 r 0) * l (ix2 r 0)
        + ∑ j : Fin 512, k2_pay10 (F := Ideal) i q k lens m (ix2 r j) := by
  unfold k2_pay11
  simp only [shapeCast_self]
  rw [addf_apply, mulf_apply, shapeCast_a_a1_apply _ _ r 0]
  exact congrArg (k2_pay9 (F := Ideal) i q k lens m m' (ix2 r 0) * l (ix2 r 0) + ·) (multiReduction_add_rows _ _ _ _ _ r)

theorem k2_pay1_apply (a : FVec Ideal S1024x1 .f32) (p : FVec Ideal S1024x512 .f32) (v : Vec Ideal S512x2048 .bf16)
    (acc : Vec Ideal S1024x2048 .f32) (r : Fin 1024) (d : Fin 2048) :
    k2_pay1 (F := Ideal) a p v acc (ix2 r d)
      = a (ix2 r 0) * acc (ix2 r d) + ∑ j : Fin 512, p (ix2 r j) * v (ix2 j d) := by
  unfold k2_pay1
  simp only [shapeCast_self, matmul]
  rw [addf_apply, mulf_apply, broadcastTo_a1_ab_apply a _ r d]
  rw [matmul_zero_apply (φ₁ := .bf16) (φ₂ := .bf16) dot_S1024x512_S512x2048_S1024x2048_1_0_0_1_n_n rfl rfl
    (fun _ _ => rfl) (fun _ _ => rfl) (fun _ _ => rfl) (fun _ _ => rfl)]
  rfl

theorem k2_pay2_eq (x : FVec Ideal S1024x1 .f32) : k2_pay2 (F := Ideal) x = x := by
  unfold k2_pay2
  exact shapeCast_self _ _

theorem k2_pay3_apply (acc : Vec Ideal S1024x2048 .f32) (l : Vec Ideal S1024x1 .f32) (r : Fin 1024) (d : Fin 2048) :
    k2_pay3 (F := Ideal) acc l (ix2 r d) = acc (ix2 r d) * Ideal.div 1 (l (ix2 r 0)) := by
  unfold k2_pay3
  rw [mulf_apply, broadcastTo_a1_ab_apply _ _ r d, divf_apply, broadcast_apply]
  show acc (ix2 r d) * Ideal.div (Ideal.ofBits .f32 0x3F800000#32) (l (ix2 r 0)) = _
  rw [ofBits_one]

theorem k2_pay4_apply (r : Fin 1024) : k2_pay4 (F := Ideal) (ix2 r 0) = (⊥ : EReal) := by
  unfold k2_pay4
  simp only [shapeCast_self]
  exact ofBits_negInf

theorem k2_pay5_apply (r : Fin 1024) : k2_pay5 (F := Ideal) (ix2 r 0) = (0 : EReal) := by
  unfold k2_pay5
  simp only [shapeCast_self]
  exact Ideal.ofBits_zero_f32

theorem k2_pay6_apply (r : Fin 1024) (d : Fin 2048) : k2_pay6 (F := Ideal) (ix2 r d) = (0 : EReal) := by
  unfold k2_pay6
  simp only [shapeCast_self]
  exact Ideal.ofBits_zero_f32

end Cert.KernelIdeal.Hand

end
-- ==== Proof.KI.FlashBlocks2.lean ====
import proofs.«404947_j13649406066966_2_alg».proof.Proof.KI.FlashRegion2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

theorem winIdx2_0 : ∀ t : Fin cfg2.N, win2_0.index t (0 : Fin 2) = t.val / 8 ∧ win2_0.index t (1 : Fin 2) = 0 :=
  (by decide +kernel : ∀ t : Fin grid2.N, win2_0.index t (0 : Fin 2) = t.val / 8 ∧ win2_0.index t (1 : Fin 2) = 0)

theorem winIdx2_1 : ∀ t : Fin cfg2.N, win2_1.index t (0 : Fin 2) = t.val % 8 ∧ win2_1.index t (1 : Fin 2) = 0 :=
  (by decide +kernel : ∀ t : Fin grid2.N, win2_1.index t (0 : Fin 2) = t.val % 8 ∧ win2_1.index t (1 : Fin 2) = 0)

theorem winIdx2_2 : ∀ t : Fin cfg2.N, win2_2.index t (0 : Fin 2) = t.val % 8 ∧ win2_2.index t (1 : Fin 2) = 0 :=
  (by decide +kernel : ∀ t : Fin grid2.N, win2_2.index t (0 : Fin 2) = t.val % 8 ∧ win2_2.index t (1 : Fin 2) = 0)

theorem winIdx2_3 : ∀ t : Fin cfg2.N, win2_3.index t (0 : Fin 2) = t.val / 8 ∧ win2_3.index t (1 : Fin 2) = 0 :=
  (by decide +kernel : ∀ t : Fin grid2.N, win2_3.index t (0 : Fin 2) = t.val / 8 ∧ win2_3.index t (1 : Fin 2) = 0)

theorem winIdx2_4 : ∀ t : Fin cfg2.N, win2_4.index t (0 : Fin 2) = t.val / 8 ∧ win2_4.index t (1 : Fin 2) = 0 :=
  (by decide +kernel : ∀ t : Fin grid2.N, win2_4.index t (0 : Fin 2) = t.val / 8 ∧ win2_4.index t (1 : Fin 2) = 0)

theorem iblk2_0_apply (c : Dev nD) (t : Fin cfg2.N) (r : Fin 1024) (cc : Fin 2048) :
    (iblk2 V c 0 t : S1024x2048.Idx → Elt F .f32) (ix2 r cc)
      = (V c (Pipeline.arrRef spec2 0) : S4096x2048.Idx → Elt F .f32)
          (ix2 (⟨1024 * (t.val / 8) + r.val, by have := t.isLt; have : cfg2.N = 32 := N_2; have := r.isLt; omega⟩ : Fin 4096) cc) := by
  obtain ⟨e0, e1⟩ := winIdx2_0 t
  unfold iblk2
  rw [View.read_apply]
  show V c (Pipeline.arrRef spec2 0) (((cfg2.win 0).blk t).view.emb (ix2 r cc)) = V c (Pipeline.arrRef spec2 0) _
  refine congrArg (V c (Pipeline.arrRef spec2 0)) (funext fun a => Fin.ext ?_)
  match a with
  | ⟨0, _⟩ => show win2_0.index t (0 : Fin 2) * 1024 + 1 * r.val = 1024 * (t.val / 8) + r.val; omega
  | ⟨1, _⟩ => show win2_0.index t (1 : Fin 2) * 2048 + 1 * cc.val = cc.val; omega

theorem iblk2_1_apply (c : Dev nD) (t : Fin cfg2.N) (j : Fin 512) (cc : Fin 2048) :
    (iblk2 V c 1 t : S512x2048.Idx → Elt F .f32) (ix2 j cc)
      = (V c (Pipeline.arrRef spec2 1) : S4096x2048.Idx → Elt F .f32)
          (ix2 (⟨512 * (t.val % 8) + j.val, by have := j.isLt; omega⟩ : Fin 4096) cc) := by
  obtain ⟨e0, e1⟩ := winIdx2_1 t
  unfold iblk2
  rw [View.read_apply]
  show V c (Pipeline.arrRef spec2 1) (((cfg2.win 1).blk t).view.emb (ix2 j cc)) = V c (Pipeline.arrRef spec2 1) _
  refine congrArg (V c (Pipeline.arrRef spec2 1)) (funext fun a => Fin.ext ?_)
  match a with
  | ⟨0, _⟩ => show win2_1.index t (0 : Fin 2) * 512 + 1 * j.val = 512 * (t.val % 8) + j.val; omega
  | ⟨1, _⟩ => show win2_1.index t (1 : Fin 2) * 2048 + 1 * cc.val = cc.val; omega

theorem iblk2_2_apply (c : Dev nD) (t : Fin cfg2.N) (j : Fin 512) (d : Fin 2048) :
    (iblk2 V c 2 t : S512x2048.Idx → Elt F .bf16) (ix2 j d)
      = (V c (Pipeline.arrRef spec2 2) : S4096x2048.Idx → Elt F .bf16)
          (ix2 (⟨512 * (t.val % 8) + j.val, by have := j.isLt; omega⟩ : Fin 4096) d) := by
  obtain ⟨e0, e1⟩ := winIdx2_2 t
  unfold iblk2
  rw [View.read_apply]
  show V c (Pipeline.arrRef spec2 2) (((cfg2.win 2).blk t).view.emb (ix2 j d)) = V c (Pipeline.arrRef spec2 2) _
  refine congrArg (V c (Pipeline.arrRef spec2 2)) (funext fun a => Fin.ext ?_)
  match a with
  | ⟨0, _⟩ => show win2_2.index t (0 : Fin 2) * 512 + 1 * j.val = 512 * (t.val % 8) + j.val; omega
  | ⟨1, _⟩ => show win2_2.index t (1 : Fin 2) * 2048 + 1 * d.val = d.val; omega

theorem iblk2_3_apply (c : Dev nD) (t : Fin cfg2.N) (r : Fin 1024) :
    (iblk2 V c 3 t : S1024x1.Idx → Elt F .i32) (ix2 r (0 : Fin 1))
      = (V c (Pipeline.arrRef spec2 3) : S4096x1.Idx → Elt F .i32)
          (ix2 (⟨1024 * (t.val / 8) + r.val, by have := t.isLt; have : cfg2.N = 32 := N_2; have := r.isLt; omega⟩ : Fin 4096) (0 : Fin 1)) := by
  obtain ⟨e0, e1⟩ := winIdx2_3 t
  unfold iblk2
  rw [View.read_apply]
  show V c (Pipeline.arrRef spec2 3) (((cfg2.win 3).blk t).view.emb (ix2 r (0 : Fin 1))) = V c (Pipeline.arrRef spec2 3) _
  refine congrArg (V c (Pipeline.arrRef spec2 3)) (funext fun a => Fin.ext ?_)
  match a with
  | ⟨0, _⟩ => show win2_3.index t (0 : Fin 2) * 1024 + 1 * r.val = 1024 * (t.val / 8) + r.val; omega
  | ⟨1, _⟩ => show win2_3.index t (1 : Fin 2) * 1 + 1 * 0 = 0; omega

theorem outsAt2_congr (c : Dev nD) {n n' : ℕ} (h : n < cfg2.N) (h' : n' < cfg2.N) (e : n = n') :
    outsAt2 V c n h = outsAt2 V c n' h' := by
  subst e; rfl

def G2_4 (c : Dev nD) : S4096x2048.Idx → Elt F .f32 := fun i =>
  (outsAt2 V c (8 * ((i 0).val / 1024) + 7) (by have := idx2_lt0 i; have : cfg2.N = 32 := N_2; omega)).1
    (ix2 (⟨(i 0).val % 1024, Nat.mod_lt _ (by decide)⟩ : Fin 1024) (i 1))

theorem G2_4_at (c : Dev nD) (t : Fin cfg2.N) (h7 : t.val % 8 = 7) (i : S4096x2048.Idx) (j : S1024x2048.Idx)
    (h0 : (i 0).val = t.val / 8 * 1024 + 1 * (j 0).val) (h1 : (i 1).val = 0 * 2048 + 1 * (j 1).val) :
    G2_4 V c i = (outsAt2 V c t.val t.isLt).1 j := by
  have hj0 := idx2_lt0 j
  unfold G2_4
  rw [outsAt2_congr V c _ t.isLt (show 8 * ((i 0).val / 1024) + 7 = t.val by omega)]
  refine congrArg (outsAt2 V c t.val t.isLt).1 (funext fun a => Fin.ext ?_)
  match a with
  | ⟨0, _⟩ => show (i 0).val % 1024 = (j 0).val; omega
  | ⟨1, _⟩ => show (i 1).val = (j 1).val; omega

theorem flushed2_4_eq (c : Dev nD) (t : Fin cfg2.N) (hf : (cfg2.win 4).flush t = true) :
    (dat2 V c).flushed 4 t = ((cfg2.win 4).blk t).view.read (Elt F) (G2_4 V c) := by
  have h7 : t.val % 8 = 7 := (flush2_4 t).mp hf
  obtain ⟨e0, e1⟩ := winIdx2_4 t
  show (cfg2.win 4).cut (grid2.coords t) ((dat2 V c).after 4 t) = _
  rw [after2_4]
  funext j
  rw [View.read_apply]
  show (outsAt2 V c t.val t.isLt).1 j = G2_4 V c (((cfg2.win 4).blk t).view.emb j)
  refine (G2_4_at V c t h7 _ j ?_ ?_).symm
  · show win2_4.index t (0 : Fin 2) * 1024 + 1 * (j 0).val = t.val / 8 * 1024 + 1 * (j 0).val
    rw [e0]
  · show win2_4.index t (1 : Fin 2) * 2048 + 1 * (j 1).val = 0 * 2048 + 1 * (j 1).val
    rw [e1]

theorem cover2_4 (i : S4096x2048.Idx) :
    ∃ t : Fin cfg2.N, (cfg2.win 4).flush t = true ∧ i ∈ ((cfg2.win 4).blk t).view.set := by
  have hi0 := idx2_lt0 i
  have hN : cfg2.N = 32 := N_2
  let t : Fin cfg2.N := ⟨8 * ((i 0).val / 1024) + 7, by omega⟩
  have ht : t.val = 8 * ((i 0).val / 1024) + 7 := rfl
  obtain ⟨e0, e1⟩ := winIdx2_4 t
  refine ⟨t, (flush2_4 t).mpr (by rw [ht]; omega), ?_⟩
  have hemb : ((cfg2.win 4).blk t).view.emb (ix2 (⟨(i 0).val % 1024, Nat.mod_lt _ (by decide)⟩ : Fin 1024) (i 1)) = i := by
    funext a
    apply Fin.ext
    match a with
    | ⟨0, _⟩ => show win2_4.index t (0 : Fin 2) * 1024 + 1 * ((i 0).val % 1024) = (i 0).val; rw [e0, ht]; omega
    | ⟨1, _⟩ => show win2_4.index t (1 : Fin 2) * 2048 + 1 * (i 1).val = (i 1).val; rw [e1]; omega
  have hmem := ((cfg2.win 4).blk t).view.emb_mem_set (ix2 (⟨(i 0).val % 1024, Nat.mod_lt _ (by decide)⟩ : Fin 1024) (i 1))
  rw [hemb] at hmem
  exact hmem

theorem arr2_4_eq (c : Dev nD) : (dat2 V c).arrAt 4 cfg2.N = G2_4 V c :=
  (dat2 V c).arrAt_eq_of_cover 4 (G2_4 V c) (flushed2_4_eq V c) cover2_4

theorem arr2_4_apply (c : Dev nD) (R : Fin 4096) (d : Fin 2048) :
    ((dat2 V c).arrAt 4 cfg2.N : S4096x2048.Idx → Elt F .f32) (ix2 R d)
      = (outsAt2 V c (8 * (R.val / 1024) + 7) (by have := R.isLt; have : cfg2.N = 32 := N_2; omega)).1
          (ix2 (⟨R.val % 1024, Nat.mod_lt _ (by decide)⟩ : Fin 1024) d) :=
  congrFun (arr2_4_eq V c) (ix2 R d)

end Cert.KernelIdeal.Hand

end
-- ==== Proof.SoftmaxLaw.lean ====
import Mathlib.Data.EReal.Basic
import Mathlib.Data.EReal.Operations
import Mathlib.Data.EReal.Inv
import Mathlib.Analysis.Complex.Exponential
import Mathlib.Algebra.BigOperators.Group.Finset.Basic
import Mathlib.Algebra.BigOperators.Ring.Finset
import Mathlib.Algebra.Order.BigOperators.Group.Finset
import Mathlib.Tactic.Ring
import Mathlib.Tactic.FieldSimp
import Idealize.ShloMosaic.PureOps.Ideal

namespace Cert.SoftmaxLaw
open Idealize.ShloMosaic

theorem coe_sum {J : Type*} (S : Finset J) (f : J → ℝ) :
    ((∑ j ∈ S, f j : ℝ) : EReal) = ∑ j ∈ S, ((f j : ℝ) : EReal) := by
  classical
  induction S using Finset.induction_on with
  | empty => rw [Finset.sum_empty, Finset.sum_empty, EReal.coe_zero]
  | insert a S ha ih => rw [Finset.sum_insert ha, Finset.sum_insert ha, EReal.coe_add, ih]

theorem coe_sum_mul {J : Type*} (S : Finset J) (f g : J → ℝ) :
    ∑ j ∈ S, ((f j : ℝ) : EReal) * ((g j : ℝ) : EReal) = ((∑ j ∈ S, f j * g j : ℝ) : EReal) := by
  rw [coe_sum]
  exact Finset.sum_congr rfl (fun j _ => (EReal.coe_mul (f j) (g j)).symm)

theorem exists_real_of_forall {J : Type*} (f : J → EReal) (h : ∀ j, ∃ r : ℝ, f j = (r : EReal)) :
    ∃ g : J → ℝ, ∀ j, f j = ((g j : ℝ) : EReal) :=
  ⟨fun j => Classical.choose (h j), fun j => Classical.choose_spec (h j)⟩

theorem max_coe (a b : ℝ) : max ((a : ℝ) : EReal) ((b : ℝ) : EReal) = ((max a b : ℝ) : EReal) :=
  (EReal.coe_strictMono.monotone.map_max).symm

theorem max_bot_coe (b : ℝ) : max (⊥ : EReal) ((b : ℝ) : EReal) = ((b : ℝ) : EReal) :=
  max_bot_left _

theorem exp_sub_coe (a b : ℝ) :
    Ideal.exp (((a : ℝ) : EReal) - ((b : ℝ) : EReal)) = ((Real.exp (a - b) : ℝ) : EReal) := by
  rw [← EReal.coe_sub, Ideal.exp_coe]

theorem div_one_coe {y : ℝ} (h : y ≠ 0) : Ideal.div 1 ((y : ℝ) : EReal) = ((1 / y : ℝ) : EReal) := by
  rw [Ideal.div_coe h, one_mul]

theorem sum_exp_mul_eq_coe {J : Type*} (S : Finset J) (s w : J → ℝ) (m : ℝ) :
    ∑ j ∈ S, Ideal.exp (((s j : ℝ) : EReal) - ((m : ℝ) : EReal)) * ((w j : ℝ) : EReal)
      = ((∑ j ∈ S, Real.exp (s j - m) * w j : ℝ) : EReal) := by
  rw [← coe_sum_mul]
  exact Finset.sum_congr rfl (fun j _ => by rw [exp_sub_coe])

theorem sum_exp_eq_coe {J : Type*} (S : Finset J) (s : J → ℝ) (m : ℝ) :
    ∑ j ∈ S, Ideal.exp (((s j : ℝ) : EReal) - ((m : ℝ) : EReal))
      = ((∑ j ∈ S, Real.exp (s j - m) : ℝ) : EReal) := by
  rw [coe_sum]
  exact Finset.sum_congr rfl (fun j _ => exp_sub_coe (s j) m)

theorem real_rescale {J : Type*} (S : Finset J) (s w : J → ℝ) (m m' : ℝ) :
    Real.exp (m - m') * ∑ j ∈ S, Real.exp (s j - m) * w j = ∑ j ∈ S, Real.exp (s j - m') * w j := by
  rw [Finset.mul_sum]
  refine Finset.sum_congr rfl (fun j _ => ?_)
  rw [← mul_assoc, ← Real.exp_add, show m - m' + (s j - m) = s j - m' by ring]

theorem real_rescale_one {J : Type*} (S : Finset J) (s : J → ℝ) (m m' : ℝ) :
    Real.exp (m - m') * ∑ j ∈ S, Real.exp (s j - m) = ∑ j ∈ S, Real.exp (s j - m') := by
  rw [Finset.mul_sum]
  refine Finset.sum_congr rfl (fun j _ => ?_)
  rw [← Real.exp_add, show m - m' + (s j - m) = s j - m' by ring]

theorem real_sum_exp_pos {J : Type*} (S : Finset J) (hS : S.Nonempty) (s : J → ℝ) (m : ℝ) :
    0 < ∑ j ∈ S, Real.exp (s j - m) :=
  Finset.sum_pos (fun j _ => Real.exp_pos (s j - m)) hS

theorem real_normalise {J : Type*} (S : Finset J) (hS : S.Nonempty) (s v : J → ℝ) (m M : ℝ) :
    (∑ j ∈ S, Real.exp (s j - m) * v j) * (1 / ∑ j ∈ S, Real.exp (s j - m))
      = ∑ j ∈ S, Real.exp (s j - M) * (1 / ∑ j' ∈ S, Real.exp (s j' - M)) * v j := by
  have hZ : (∑ j ∈ S, Real.exp (s j - M)) ≠ 0 := (real_sum_exp_pos S hS s M).ne'
  have hE : Real.exp (M - m) ≠ 0 := (Real.exp_pos (M - m)).ne'
  have hR : ∑ j ∈ S, Real.exp (s j - M) * (1 / ∑ j' ∈ S, Real.exp (s j' - M)) * v j
      = (∑ j ∈ S, Real.exp (s j - M) * v j) * (1 / ∑ j' ∈ S, Real.exp (s j' - M)) := by
    rw [Finset.sum_mul]
    exact Finset.sum_congr rfl (fun j _ => by ring)
  rw [hR, ← real_rescale S s v M m, ← real_rescale_one S s M m]
  field_simp

-- exp (m − m') · exp (s − m) = exp (s − m'): moving the shift rescales the sum over S; the new block B enters at m'.
theorem step {J : Type*} [DecidableEq J] (S B : Finset J) (hd : Disjoint S B) (s w : J → ℝ) (m m' : ℝ) :
    Ideal.exp (((m : ℝ) : EReal) - ((m' : ℝ) : EReal))
        * (∑ j ∈ S, Ideal.exp (((s j : ℝ) : EReal) - ((m : ℝ) : EReal)) * ((w j : ℝ) : EReal))
      + ∑ j ∈ B, Ideal.exp (((s j : ℝ) : EReal) - ((m' : ℝ) : EReal)) * ((w j : ℝ) : EReal)
    = ∑ j ∈ S ∪ B, Ideal.exp (((s j : ℝ) : EReal) - ((m' : ℝ) : EReal)) * ((w j : ℝ) : EReal) := by
  rw [exp_sub_coe, sum_exp_mul_eq_coe, sum_exp_mul_eq_coe, sum_exp_mul_eq_coe, ← EReal.coe_mul,
    ← EReal.coe_add, real_rescale, Finset.sum_union hd]

theorem step_one {J : Type*} [DecidableEq J] (S B : Finset J) (hd : Disjoint S B) (s : J → ℝ) (m m' : ℝ) :
    Ideal.exp (((m : ℝ) : EReal) - ((m' : ℝ) : EReal))
        * (∑ j ∈ S, Ideal.exp (((s j : ℝ) : EReal) - ((m : ℝ) : EReal)))
      + ∑ j ∈ B, Ideal.exp (((s j : ℝ) : EReal) - ((m' : ℝ) : EReal))
    = ∑ j ∈ S ∪ B, Ideal.exp (((s j : ℝ) : EReal) - ((m' : ℝ) : EReal)) := by
  rw [exp_sub_coe, sum_exp_eq_coe, sum_exp_eq_coe, sum_exp_eq_coe, ← EReal.coe_mul,
    ← EReal.coe_add, real_rescale_one, Finset.sum_union hd]

theorem step_init (x : EReal) (m' : ℝ) :
    Ideal.exp ((⊥ : EReal) - ((m' : ℝ) : EReal)) * 0 + x = x := by
  rw [mul_zero, zero_add]

theorem exp_bot_sub_coe (m' : ℝ) : Ideal.exp ((⊥ : EReal) - ((m' : ℝ) : EReal)) = 0 := by
  rw [EReal.bot_sub, Ideal.exp_bot]

-- Σ exp (s − m) v / Σ exp (s − m) does not depend on the shift m.
theorem normalise {J : Type*} [Fintype J] [Nonempty J] (s v : J → ℝ) (m M : ℝ) :
    (∑ j, Ideal.exp (((s j : ℝ) : EReal) - ((m : ℝ) : EReal)) * ((v j : ℝ) : EReal))
        * Ideal.div 1 (∑ j, Ideal.exp (((s j : ℝ) : EReal) - ((m : ℝ) : EReal)))
    = ∑ j, Ideal.div (Ideal.exp (((s j : ℝ) : EReal) - ((M : ℝ) : EReal)))
          (∑ j', Ideal.exp (((s j' : ℝ) : EReal) - ((M : ℝ) : EReal))) * ((v j : ℝ) : EReal) := by
  have hne : (Finset.univ : Finset J).Nonempty := Finset.univ_nonempty
  have hm : (∑ j, Real.exp (s j - m)) ≠ 0 := (real_sum_exp_pos Finset.univ hne s m).ne'
  have hM : (∑ j, Real.exp (s j - M)) ≠ 0 := (real_sum_exp_pos Finset.univ hne s M).ne'
  rw [sum_exp_mul_eq_coe, sum_exp_eq_coe, sum_exp_eq_coe, div_one_coe hm, ← EReal.coe_mul,
    real_normalise Finset.univ hne s v m M, coe_sum]
  refine Finset.sum_congr rfl (fun j _ => ?_)
  rw [exp_sub_coe, Ideal.div_coe hM, EReal.coe_mul, EReal.coe_mul]

theorem exists_real_sum_exp_mul {J : Type*} (S : Finset J) (s w : J → ℝ) (m : ℝ) :
    ∃ r : ℝ, ∑ j ∈ S, Ideal.exp (((s j : ℝ) : EReal) - ((m : ℝ) : EReal)) * ((w j : ℝ) : EReal) = (r : EReal) :=
  ⟨_, sum_exp_mul_eq_coe S s w m⟩

theorem exists_real_sum_exp {J : Type*} (S : Finset J) (s : J → ℝ) (m : ℝ) :
    ∃ r : ℝ, ∑ j ∈ S, Ideal.exp (((s j : ℝ) : EReal) - ((m : ℝ) : EReal)) = (r : EReal) :=
  ⟨_, sum_exp_eq_coe S s m⟩

theorem exists_pos_real_sum_exp {J : Type*} (S : Finset J) (hS : S.Nonempty) (s : J → ℝ) (m : ℝ) :
    ∃ r : ℝ, 0 < r ∧ ∑ j ∈ S, Ideal.exp (((s j : ℝ) : EReal) - ((m : ℝ) : EReal)) = (r : EReal) :=
  ⟨_, real_sum_exp_pos S hS s m, sum_exp_eq_coe S s m⟩

theorem exists_pos_real_sum_exp_univ {J : Type*} [Fintype J] [Nonempty J] (s : J → ℝ) (m : ℝ) :
    ∃ r : ℝ, 0 < r ∧ ∑ j, Ideal.exp (((s j : ℝ) : EReal) - ((m : ℝ) : EReal)) = (r : EReal) :=
  exists_pos_real_sum_exp Finset.univ Finset.univ_nonempty s m

theorem sum_exp_ne_zero {J : Type*} (S : Finset J) (hS : S.Nonempty) (s : J → ℝ) (m : ℝ) :
    ∑ j ∈ S, Ideal.exp (((s j : ℝ) : EReal) - ((m : ℝ) : EReal)) ≠ 0 := by
  rw [sum_exp_eq_coe]
  exact EReal.coe_ne_zero.mpr (real_sum_exp_pos S hS s m).ne'

end Cert.SoftmaxLaw
-- ==== Proof.OnlineBlocks.lean ====
import proofs.«404947_j13649406066966_2_alg».proof.Proof.SoftmaxLaw
import Idealize.ShloMosaic.PureOps.Ideal
import Mathlib.Data.EReal.Basic
import Mathlib.Data.Finset.Image
import Mathlib.Data.Finset.Union
import Mathlib.Data.Fintype.Basic
import Mathlib.Algebra.BigOperators.Group.Finset.Basic
import Mathlib.Tactic.NormNum.Basic

namespace Cert.OnlineBlocks

open Idealize.ShloMosaic

def below (n : ℕ) : Finset (Fin 4096) := Finset.univ.filter (fun j => j.val < 512 * n)

def block (key : Fin 8 → Fin 512 → Fin 4096) (kv : Fin 8) : Finset (Fin 4096) :=
  (Finset.univ : Finset (Fin 512)).image (key kv)

theorem mem_below {n : ℕ} {j : Fin 4096} : j ∈ below n ↔ j.val < 512 * n := by
  unfold below
  rw [Finset.mem_filter]
  exact ⟨fun h => h.2, fun h => ⟨Finset.mem_univ _, h⟩⟩

theorem mem_block {key : Fin 8 → Fin 512 → Fin 4096} {kv : Fin 8} {j : Fin 4096} :
    j ∈ block key kv ↔ ∃ jj, key kv jj = j := by
  unfold block
  rw [Finset.mem_image]
  exact ⟨fun ⟨jj, _, h⟩ => ⟨jj, h⟩, fun ⟨jj, h⟩ => ⟨jj, Finset.mem_univ _, h⟩⟩

theorem below_zero : below 0 = ∅ := by
  ext j
  rw [mem_below]
  simp only [Nat.mul_zero, Nat.not_lt_zero, Finset.notMem_empty]

theorem below_eight : below 8 = Finset.univ := by
  ext j
  rw [mem_below]
  have := j.isLt
  exact ⟨fun _ => Finset.mem_univ _, fun _ => by omega⟩

theorem below_succ (key : Fin 8 → Fin 512 → Fin 4096)
    (hkey : ∀ kv jj, (key kv jj).val = 512 * kv.val + jj.val) (kv : Fin 8) (n : ℕ) (hn : kv.val = n) :
    below (n + 1) = below n ∪ block key kv := by
  ext j
  rw [Finset.mem_union, mem_below, mem_below, mem_block]
  constructor
  · intro h
    by_cases hlt : j.val < 512 * n
    · exact Or.inl hlt
    · refine Or.inr ⟨⟨j.val - 512 * n, by omega⟩, Fin.ext ?_⟩
      rw [hkey, hn]
      show 512 * n + (j.val - 512 * n) = j.val
      omega
  · rintro (h | ⟨jj, rfl⟩)
    · omega
    · rw [hkey, hn]
      have := jj.isLt
      omega

theorem disjoint_below_block (key : Fin 8 → Fin 512 → Fin 4096)
    (hkey : ∀ kv jj, (key kv jj).val = 512 * kv.val + jj.val) (kv : Fin 8) (n : ℕ) (hn : kv.val = n) :
    Disjoint (below n) (block key kv) := by
  rw [Finset.disjoint_left]
  intro j hj hjb
  rw [mem_below] at hj
  rw [mem_block] at hjb
  obtain ⟨jj, rfl⟩ := hjb
  rw [hkey, hn] at hj
  omega

theorem key_injective (key : Fin 8 → Fin 512 → Fin 4096)
    (hkey : ∀ kv jj, (key kv jj).val = 512 * kv.val + jj.val) (kv : Fin 8) : Function.Injective (key kv) := by
  intro a b h
  have hv := congrArg Fin.val h
  rw [hkey, hkey] at hv
  exact Fin.ext (by omega)

theorem sum_block {M : Type*} [AddCommMonoid M] (key : Fin 8 → Fin 512 → Fin 4096)
    (hkey : ∀ kv jj, (key kv jj).val = 512 * kv.val + jj.val) (kv : Fin 8) (f : Fin 4096 → M) :
    ∑ jj : Fin 512, f (key kv jj) = ∑ j ∈ block key kv, f j := by
  unfold block
  rw [Finset.sum_image (fun a _ b _ h => key_injective key hkey kv h)]

theorem invariant (L V : Fin 4096 → ℝ) (b : Fin 8 → ℝ)
    (key : Fin 8 → Fin 512 → Fin 4096) (hkey : ∀ kv jj, (key kv jj).val = 512 * kv.val + jj.val)
    (mm ll aa : Fin 8 → EReal)
    (h0 : mm 0 = max ⊥ ((b 0 : ℝ) : EReal)
        ∧ ll 0 = Ideal.exp (⊥ - mm 0) * 0 + ∑ jj : Fin 512, Ideal.exp (((L (key 0 jj) : ℝ) : EReal) - mm 0)
        ∧ aa 0 = Ideal.exp (⊥ - mm 0) * 0
            + ∑ jj : Fin 512, Ideal.exp (((L (key 0 jj) : ℝ) : EReal) - mm 0) * ((V (key 0 jj) : ℝ) : EReal))
    (hs : ∀ kp kv : Fin 8, kp.val + 1 = kv.val →
          mm kv = max (mm kp) ((b kv : ℝ) : EReal)
        ∧ ll kv = Ideal.exp (mm kp - mm kv) * ll kp
            + ∑ jj : Fin 512, Ideal.exp (((L (key kv jj) : ℝ) : EReal) - mm kv)
        ∧ aa kv = Ideal.exp (mm kp - mm kv) * aa kp
            + ∑ jj : Fin 512, Ideal.exp (((L (key kv jj) : ℝ) : EReal) - mm kv) * ((V (key kv jj) : ℝ) : EReal)) :
    ∀ (n : ℕ) (kv : Fin 8), kv.val = n → ∃ μ : ℝ, mm kv = ((μ : ℝ) : EReal)
      ∧ ll kv = ∑ j ∈ below (n + 1), Ideal.exp (((L j : ℝ) : EReal) - ((μ : ℝ) : EReal))
      ∧ aa kv = ∑ j ∈ below (n + 1), Ideal.exp (((L j : ℝ) : EReal) - ((μ : ℝ) : EReal)) * ((V j : ℝ) : EReal) := by
  intro n
  induction n with
  | zero =>
    intro kv hkv
    obtain rfl : kv = 0 := Fin.ext hkv
    obtain ⟨hm, hl, ha⟩ := h0
    have hm' : mm 0 = ((b 0 : ℝ) : EReal) := by rw [hm, Cert.SoftmaxLaw.max_bot_coe]
    refine ⟨b 0, hm', ?_, ?_⟩
    · rw [hl, hm', Cert.SoftmaxLaw.step_init, below_succ key hkey 0 0 rfl, below_zero, Finset.empty_union]
      exact sum_block key hkey 0 (fun j => Ideal.exp (((L j : ℝ) : EReal) - ((b 0 : ℝ) : EReal)))
    · rw [ha, hm', Cert.SoftmaxLaw.step_init, below_succ key hkey 0 0 rfl, below_zero, Finset.empty_union]
      exact sum_block key hkey 0
        (fun j => Ideal.exp (((L j : ℝ) : EReal) - ((b 0 : ℝ) : EReal)) * ((V j : ℝ) : EReal))
  | succ n ih =>
    intro kv hkv
    have hn : n < 8 := by have := kv.isLt; omega
    obtain ⟨μp, hmp, hlp, hap⟩ := ih ⟨n, hn⟩ rfl
    obtain ⟨hm, hl, ha⟩ := hs ⟨n, hn⟩ kv hkv.symm
    have hm' : mm kv = ((max μp (b kv) : ℝ) : EReal) := by rw [hm, hmp, Cert.SoftmaxLaw.max_coe]
    refine ⟨max μp (b kv), hm', ?_, ?_⟩
    · rw [hl, hm', hmp, hlp,
        sum_block key hkey kv (fun j => Ideal.exp (((L j : ℝ) : EReal) - ((max μp (b kv) : ℝ) : EReal))),
        below_succ key hkey kv (n + 1) hkv]
      exact Cert.SoftmaxLaw.step_one (below (n + 1)) (block key kv)
        (disjoint_below_block key hkey kv (n + 1) hkv) L μp (max μp (b kv))
    · rw [ha, hm', hmp, hap,
        sum_block key hkey kv
          (fun j => Ideal.exp (((L j : ℝ) : EReal) - ((max μp (b kv) : ℝ) : EReal)) * ((V j : ℝ) : EReal)),
        below_succ key hkey kv (n + 1) hkv]
      exact Cert.SoftmaxLaw.step (below (n + 1)) (block key kv)
        (disjoint_below_block key hkey kv (n + 1) hkv) L V μp (max μp (b kv))

theorem online_row (Lg Vg : Fin 4096 → EReal) (hL : ∀ j, ∃ y : ℝ, Lg j = (y : EReal)) (hV : ∀ j, ∃ y : ℝ, Vg j = (y : EReal))
    (bmax : Fin 8 → EReal) (hb : ∀ kv, ∃ y : ℝ, bmax kv = (y : EReal))
    (key : Fin 8 → Fin 512 → Fin 4096) (hkey : ∀ kv jj, (key kv jj).val = 512 * kv.val + jj.val)
    (mm ll aa : Fin 8 → EReal)
    (h0 : mm 0 = max ⊥ (bmax 0)
        ∧ ll 0 = Ideal.exp (⊥ - mm 0) * 0 + ∑ jj : Fin 512, Ideal.exp (Lg (key 0 jj) - mm 0)
        ∧ aa 0 = Ideal.exp (⊥ - mm 0) * 0 + ∑ jj : Fin 512, Ideal.exp (Lg (key 0 jj) - mm 0) * Vg (key 0 jj))
    (hs : ∀ kp kv : Fin 8, kp.val + 1 = kv.val →
          mm kv = max (mm kp) (bmax kv)
        ∧ ll kv = Ideal.exp (mm kp - mm kv) * ll kp + ∑ jj : Fin 512, Ideal.exp (Lg (key kv jj) - mm kv)
        ∧ aa kv = Ideal.exp (mm kp - mm kv) * aa kp + ∑ jj : Fin 512, Ideal.exp (Lg (key kv jj) - mm kv) * Vg (key kv jj)) :
    ∃ sh : ℝ, aa 7 * Ideal.div 1 (ll 7)
        = (∑ j : Fin 4096, Ideal.exp (Lg j - (sh : EReal)) * Vg j) * Ideal.div 1 (∑ j : Fin 4096, Ideal.exp (Lg j - (sh : EReal))) := by
  obtain ⟨L, hL'⟩ := Cert.SoftmaxLaw.exists_real_of_forall Lg hL
  obtain ⟨V, hV'⟩ := Cert.SoftmaxLaw.exists_real_of_forall Vg hV
  obtain ⟨b, hb'⟩ := Cert.SoftmaxLaw.exists_real_of_forall bmax hb
  obtain rfl : Lg = fun j => ((L j : ℝ) : EReal) := funext hL'
  obtain rfl : Vg = fun j => ((V j : ℝ) : EReal) := funext hV'
  obtain rfl : bmax = fun kv => ((b kv : ℝ) : EReal) := funext hb'
  obtain ⟨μ, -, hl, ha⟩ := invariant L V b key hkey mm ll aa h0 hs 7 7 rfl
  have e8 : below (7 + 1) = Finset.univ := below_eight
  rw [e8] at hl ha
  exact ⟨μ, by rw [ha, hl]⟩

end Cert.OnlineBlocks
-- ==== Proof.Finite.lean ====
import proofs.«404947_j13649406066966_2_alg».proof.Pre_finite_inputs
import proofs.«404947_j13649406066966_2_alg».proof.Proof.Gen.Pre_finite_inputs
import proofs.«404947_j13649406066966_2_alg».proof.Proof.Spec
import proofs.«404947_j13649406066966_2_alg».proof.Proof.SoftmaxLaw
import Idealize.ShloMosaic.Lib.ReduceAll
import Idealize.ShloMosaic.Lib.ValueIdx
import Idealize.ShloMosaic.PureOps.Ideal
import Mathlib.Data.EReal.Basic
import Mathlib.Data.EReal.Operations

namespace Cert.Finite

open Idealize.ShloMosaic Idealize.ShloMosaic.ValueIdx

instance : Subsingleton Cert.Pre_finite_inputs.S_.Idx := ⟨fun _ _ => funext fun d => d.elim0⟩

theorem ofBits_inf : Ideal.ofBits .f32 0x7F800000#32 = ⊤ := by simp [Ideal.ofBits, Ideal.ieee]

theorem real_of_abs_lt (x : EReal)
    (h : Ideal.cmp .olt (max x (-x)) (Ideal.ofBits .f32 0x7F800000#32) = 1#1) : ∃ y : ℝ, x = (y : EReal) := by
  rw [ofBits_inf] at h
  change BitVec.ofBool (decide (max x (-x) < ⊤)) = 1#1 at h
  have hlt : max x (-x) < ⊤ := by
    by_contra hn
    rw [decide_eq_false hn] at h
    exact absurd h (by decide)
  induction x using EReal.rec with
  | bot => simp at hlt
  | top => simp at hlt
  | coe r => exact ⟨r, rfl⟩

theorem real_of_all {s : Shape} {axes : List (Fin s.rank)}
    {dims : Fin Cert.Pre_finite_inputs.S_.rank → Fin s.rank} (a : FVec Ideal s .f32)
    (hb : Cert.Pre_finite_inputs.S_.BroadcastsInDim s dims) (hr : s.ReducesTo axes Cert.Pre_finite_inputs.S_)
    (hu : 0 < Cert.Pre_finite_inputs.S_.numel) (init : IVec Cert.Pre_finite_inputs.S_ 1)
    (j : Cert.Pre_finite_inputs.S_.Idx)
    (e : Host.reduce IntOp.andi
          (cmpf .olt (Host.absf a)
            (broadcastInDim s dims hb (constant (F := Ideal) Cert.Pre_finite_inputs.S_ .f32 0x7F800000#32)))
          init hr hu j = 1#1)
    (i : s.Idx) : ∃ y : ℝ, a i = (y : EReal) :=
  real_of_abs_lt (a i) (Host.reduce_andi_all _ init hr hu j e i)

theorem real_of_pre [Cert.Pre_finite_inputs.Facts]
    (a0 a1 : FVec Ideal Cert.Pre_finite_inputs.S4096x2048 .f32)
    (a2 a3 a4 a5 a6 a7 : FVec Ideal Cert.Pre_finite_inputs.S2048x2048 .f32)
    (a8 : IVec Cert.Pre_finite_inputs.S4096 32)
    (h : Cert.Pre_finite_inputs.fn (F := Ideal) a0 a1 a2 a3 a4 a5 a6 a7 a8 = (fun _ => 1#1)) :
    (∀ i, ∃ y : ℝ, a0 i = (y : EReal)) ∧ (∀ i, ∃ y : ℝ, a1 i = (y : EReal)) ∧ (∀ i, ∃ y : ℝ, a2 i = (y : EReal)) ∧ (∀ i, ∃ y : ℝ, a3 i = (y : EReal)) ∧ (∀ i, ∃ y : ℝ, a4 i = (y : EReal)) ∧ (∀ i, ∃ y : ℝ, a5 i = (y : EReal)) ∧ (∀ i, ∃ y : ℝ, a6 i = (y : EReal)) ∧ (∀ i, ∃ y : ℝ, a7 i = (y : EReal)) := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7⟩

theorem sum_mul_real {J : Type*} [Fintype J] (f g : J → EReal) (hf : ∀ j, ∃ y : ℝ, f j = (y : EReal))
    (hg : ∀ j, ∃ y : ℝ, g j = (y : EReal)) : ∃ y : ℝ, ∑ j, f j * g j = (y : EReal) := by
  obtain ⟨f', hf'⟩ := Cert.SoftmaxLaw.exists_real_of_forall f hf
  obtain ⟨g', hg'⟩ := Cert.SoftmaxLaw.exists_real_of_forall g hg
  refine ⟨∑ j, f' j * g' j, ?_⟩
  rw [← Cert.SoftmaxLaw.coe_sum_mul]
  exact Finset.sum_congr rfl (fun j _ => by rw [hf' j, hg' j])

theorem proj_real (x : Cert.Spec.Arr2 4096 2048) (w : Cert.Spec.Arr2 2048 2048)
    (hx : ∀ i, ∃ y : ℝ, x i = (y : EReal)) (hw : ∀ i, ∃ y : ℝ, w i = (y : EReal))
    (r : Fin 4096) (d : Fin 2048) : ∃ y : ℝ, Cert.Spec.proj x w r d = (y : EReal) :=
  sum_mul_real _ _ (fun k => hx (ix2 r k)) (fun k => hw (ix2 d k))

theorem logit_real (q k : Fin 4096 → Fin 2048 → EReal) (lens : Cert.Spec.Words 4096)
    (hq : ∀ r c, ∃ y : ℝ, q r c = (y : EReal)) (hk : ∀ r c, ∃ y : ℝ, k r c = (y : EReal))
    (r j : Fin 4096) : ∃ y : ℝ, Cert.Spec.logit q k lens r j = (y : EReal) := by
  unfold Cert.Spec.logit
  split_ifs
  · exact sum_mul_real _ _ (fun c => hq r c) (fun c => hk j c)
  · exact ⟨-2147483648, rfl⟩

theorem attnAcc_eq_attn (q k v : Fin 4096 → Fin 2048 → EReal) (lens : Cert.Spec.Words 4096)
    (sh sh' : Fin 4096 → EReal) (r : Fin 4096) (d : Fin 2048)
    (hl : ∀ j, ∃ y : ℝ, Cert.Spec.logit q k lens r j = (y : EReal)) (hv : ∀ j, ∃ y : ℝ, v j d = (y : EReal))
    (hs : ∃ y : ℝ, sh r = (y : EReal)) (hs' : ∃ y : ℝ, sh' r = (y : EReal)) :
    Cert.Spec.attnAcc q k v lens sh r d = Cert.Spec.attn q k v lens sh' r d := by
  obtain ⟨l, hl'⟩ := Cert.SoftmaxLaw.exists_real_of_forall _ hl
  obtain ⟨v', hv'⟩ := Cert.SoftmaxLaw.exists_real_of_forall (fun j => v j d) hv
  obtain ⟨m, hm⟩ := hs
  obtain ⟨M, hM⟩ := hs'
  unfold Cert.Spec.attnAcc Cert.Spec.attn
  rw [hm, hM]
  have hv'' : ∀ j, v j d = ((v' j : ℝ) : EReal) := hv'
  simp only [hl', hv'']
  exact Cert.SoftmaxLaw.normalise l v' m M

end Cert.Finite
-- ==== Proof.KI.FlashValue2.lean ====
import proofs.«404947_j13649406066966_2_alg».proof.Proof.KI.FlashPieces2
import proofs.«404947_j13649406066966_2_alg».proof.Proof.KI.FlashPay2
import proofs.«404947_j13649406066966_2_alg».proof.Proof.KI.FlashBlocks2
import proofs.«404947_j13649406066966_2_alg».proof.Proof.OnlineBlocks
import proofs.«404947_j13649406066966_2_alg».proof.Proof.Spec
import proofs.«404947_j13649406066966_2_alg».proof.Proof.Finite
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

theorem step2_max (i : grid2.Coords) (x0 : Vec Ideal S1024x2048 .f32) (x1 : Vec Ideal S512x2048 .f32)
    (x3 : Vec Ideal S1024x1 .i32) (m : Vec Ideal S1024x1 .f32) (r : Fin 1024) :
    k2_pay2 (F := Ideal) (k2_pay8 (F := Ideal) i x0 x1 x3 m) (ix2 r 0)
      = max (m (ix2 r 0)) (blockMax (i 1).val x0 x1 x3 r) :=
  (congrFun (k2_pay2_eq (k2_pay8 (F := Ideal) i x0 x1 x3 m)) (ix2 r 0)).trans (k2_pay8_apply i x0 x1 x3 m r)

theorem step2_norm (i : grid2.Coords) (x0 : Vec Ideal S1024x2048 .f32) (x1 : Vec Ideal S512x2048 .f32)
    (x3 : Vec Ideal S1024x1 .i32) (m l : Vec Ideal S1024x1 .f32) (r : Fin 1024) :
    k2_pay11 (F := Ideal) i x0 x1 x3 m m l (ix2 r 0)
      = Ideal.exp (m (ix2 r 0) - max (m (ix2 r 0)) (blockMax (i 1).val x0 x1 x3 r)) * l (ix2 r 0)
        + ∑ j : Fin 512, Ideal.exp (sblk (i 1).val x0 x1 x3 r j - max (m (ix2 r 0)) (blockMax (i 1).val x0 x1 x3 r)) := by
  refine (k2_pay11_apply i x0 x1 x3 m m l r).trans ?_
  rw [k2_pay9_apply, k2_pay8_apply]
  refine congrArg (_ + ·) (Finset.sum_congr rfl fun j _ => ?_)
  rw [k2_pay10_apply, k2_pay8_apply]

theorem step2_acc (i : grid2.Coords) (x0 : Vec Ideal S1024x2048 .f32) (x1 : Vec Ideal S512x2048 .f32)
    (x2 : Vec Ideal S512x2048 .bf16) (x3 : Vec Ideal S1024x1 .i32) (m : Vec Ideal S1024x1 .f32)
    (acc : Vec Ideal S1024x2048 .f32) (r : Fin 1024) (d : Fin 2048) :
    k2_pay1 (F := Ideal) (k2_pay9 (F := Ideal) i x0 x1 x3 m m) (k2_pay10 (F := Ideal) i x0 x1 x3 m) x2 acc (ix2 r d)
      = Ideal.exp (m (ix2 r 0) - max (m (ix2 r 0)) (blockMax (i 1).val x0 x1 x3 r)) * acc (ix2 r d)
        + ∑ j : Fin 512, Ideal.exp (sblk (i 1).val x0 x1 x3 r j - max (m (ix2 r 0)) (blockMax (i 1).val x0 x1 x3 r))
            * x2 (ix2 j d) := by
  refine (k2_pay1_apply _ _ x2 acc r d).trans ?_
  rw [k2_pay9_apply, k2_pay8_apply]
  refine congrArg (_ + ·) (Finset.sum_congr rfl fun j _ => ?_)
  rw [k2_pay10_apply, k2_pay8_apply]

theorem coord2_key : ∀ t : Fin cfg2.N, ((grid2.coords t) 1).val = t.val % 8 :=
  (by decide +kernel : ∀ t : Fin grid2.N, ((grid2.coords t) 1).val = t.val % 8)

def row2_max (c : Dev nD) (t : Fin cfg2.N) (r : Fin 1024) : EReal := (outsAt2 V c t.val t.isLt).2.1 (ix2 r 0)

def row2_norm (c : Dev nD) (t : Fin cfg2.N) (r : Fin 1024) : EReal := (outsAt2 V c t.val t.isLt).2.2.1 (ix2 r 0)

def row2_acc (c : Dev nD) (t : Fin cfg2.N) (r : Fin 1024) (d : Fin 2048) : EReal := (outsAt2 V c t.val t.isLt).2.2.2 (ix2 r d)

def row2_logit (c : Dev nD) (t : Fin cfg2.N) (r : Fin 1024) (jj : Fin 512) : EReal :=
  sblk (t.val % 8) (iblk2 V c 0 t) (iblk2 V c 1 t) (iblk2 V c 3 t) r jj

def row2_bmax (c : Dev nD) (t : Fin cfg2.N) (r : Fin 1024) : EReal :=
  blockMax (t.val % 8) (iblk2 V c 0 t) (iblk2 V c 1 t) (iblk2 V c 3 t) r

def row2_val (c : Dev nD) (t : Fin cfg2.N) (jj : Fin 512) (d : Fin 2048) : EReal :=
  (iblk2 V c 2 t : S512x2048.Idx → Elt Ideal .bf16) (ix2 jj d)

theorem scratch2_first (c : Dev nD) (t : Fin cfg2.N) (h0 : t.val % 8 = 0) :
    (outsAt2 V c t.val t.isLt).2.1
        = k2_pay2 (F := Ideal) (k2_pay8 (F := Ideal) (grid2.coords t) (iblk2 V c 0 t) (iblk2 V c 1 t) (iblk2 V c 3 t) (k2_pay4 (F := Ideal)))
    ∧ (outsAt2 V c t.val t.isLt).2.2.1
        = k2_pay11 (F := Ideal) (grid2.coords t) (iblk2 V c 0 t) (iblk2 V c 1 t) (iblk2 V c 3 t) (k2_pay4 (F := Ideal)) (k2_pay4 (F := Ideal)) (k2_pay5 (F := Ideal))
    ∧ (outsAt2 V c t.val t.isLt).2.2.2
        = k2_pay1 (F := Ideal) (k2_pay9 (F := Ideal) (grid2.coords t) (iblk2 V c 0 t) (iblk2 V c 1 t) (iblk2 V c 3 t) (k2_pay4 (F := Ideal)) (k2_pay4 (F := Ideal)))
            (k2_pay10 (F := Ideal) (grid2.coords t) (iblk2 V c 0 t) (iblk2 V c 1 t) (iblk2 V c 3 t) (k2_pay4 (F := Ideal))) (iblk2 V c 2 t) (k2_pay6 (F := Ideal)) := by
  have h1 : ¬t.val % 8 = 7 := by omega
  refine ⟨?_, ?_, ?_⟩
  · rw [outsAt2_A V c t h0 h1]; dsimp only [outs2_A]; rw [sout2_A_0_eq]
  · rw [outsAt2_A V c t h0 h1]; dsimp only [outs2_A]; rw [sout2_A_1_eq]
  · rw [outsAt2_A V c t h0 h1]; dsimp only [outs2_A]; rw [sout2_A_2_eq]

theorem scratch2_next (c : Dev nD) (t t' : Fin cfg2.N) (h0 : ¬t.val % 8 = 0) (hp : t'.val + 1 = t.val) :
    (outsAt2 V c t.val t.isLt).2.1
        = k2_pay2 (F := Ideal) (k2_pay8 (F := Ideal) (grid2.coords t) (iblk2 V c 0 t) (iblk2 V c 1 t) (iblk2 V c 3 t) (outsAt2 V c t'.val t'.isLt).2.1)
    ∧ (outsAt2 V c t.val t.isLt).2.2.1
        = k2_pay11 (F := Ideal) (grid2.coords t) (iblk2 V c 0 t) (iblk2 V c 1 t) (iblk2 V c 3 t) (outsAt2 V c t'.val t'.isLt).2.1 (outsAt2 V c t'.val t'.isLt).2.1 (outsAt2 V c t'.val t'.isLt).2.2.1
    ∧ (outsAt2 V c t.val t.isLt).2.2.2
        = k2_pay1 (F := Ideal) (k2_pay9 (F := Ideal) (grid2.coords t) (iblk2 V c 0 t) (iblk2 V c 1 t) (iblk2 V c 3 t) (outsAt2 V c t'.val t'.isLt).2.1 (outsAt2 V c t'.val t'.isLt).2.1)
            (k2_pay10 (F := Ideal) (grid2.coords t) (iblk2 V c 0 t) (iblk2 V c 1 t) (iblk2 V c 3 t) (outsAt2 V c t'.val t'.isLt).2.1) (iblk2 V c 2 t) (outsAt2 V c t'.val t'.isLt).2.2.2 := by
  have hprev : outsAt2 V c (t.val - 1) (Nat.lt_of_le_of_lt (Nat.sub_le _ _) t.isLt) = outsAt2 V c t'.val t'.isLt :=
    outsAt2_congr V c _ _ (by omega)
  by_cases h1 : t.val % 8 = 7
  · refine ⟨?_, ?_, ?_⟩
    · rw [outsAt2_C V c t h0 h1]; dsimp only [outs2_C]; rw [sout2_C_0_eq, hprev]
    · rw [outsAt2_C V c t h0 h1]; dsimp only [outs2_C]; rw [sout2_C_1_eq, hprev]
    · rw [outsAt2_C V c t h0 h1]; dsimp only [outs2_C]; rw [sout2_C_2_eq, hprev]
  · refine ⟨?_, ?_, ?_⟩
    · rw [outsAt2_B V c t h0 h1]; dsimp only [outs2_B]; rw [sout2_B_0_eq, hprev]
    · rw [outsAt2_B V c t h0 h1]; dsimp only [outs2_B]; rw [sout2_B_1_eq, hprev]
    · rw [outsAt2_B V c t h0 h1]; dsimp only [outs2_B]; rw [sout2_B_2_eq, hprev]

theorem out2_last (c : Dev nD) (t t' : Fin cfg2.N) (h7 : t.val % 8 = 7) (hp : t'.val + 1 = t.val) (r : Fin 1024) (d : Fin 2048) :
    (outsAt2 V c t.val t.isLt).1 (ix2 r d) = row2_acc V c t r d * Ideal.div 1 (row2_norm V c t r) := by
  have h0 : ¬t.val % 8 = 0 := by omega
  obtain ⟨-, el, ea⟩ := scratch2_next V c t t' h0 hp
  have hprev : outsAt2 V c (t.val - 1) (Nat.lt_of_le_of_lt (Nat.sub_le _ _) t.isLt) = outsAt2 V c t'.val t'.isLt :=
    outsAt2_congr V c _ _ (by omega)
  have eo : (outsAt2 V c t.val t.isLt).1
      = k2_pay3 (F := Ideal) (outsAt2 V c t.val t.isLt).2.2.2 (outsAt2 V c t.val t.isLt).2.2.1 := by
    rw [ea, el, outsAt2_C V c t h0 h7]; dsimp only [outs2_C]; rw [out2_C_4_eq, hprev]
  unfold row2_acc row2_norm
  exact (congrFun eo (ix2 r d)).trans (k2_pay3_apply _ _ r d)

theorem state2_first (c : Dev nD) (t : Fin cfg2.N) (h0 : t.val % 8 = 0) (r : Fin 1024) (d : Fin 2048) :
    row2_max V c t r = max ⊥ (row2_bmax V c t r)
    ∧ row2_norm V c t r = Ideal.exp (⊥ - row2_max V c t r) * 0
        + ∑ jj : Fin 512, Ideal.exp (row2_logit V c t r jj - row2_max V c t r)
    ∧ row2_acc V c t r d = Ideal.exp (⊥ - row2_max V c t r) * 0
        + ∑ jj : Fin 512, Ideal.exp (row2_logit V c t r jj - row2_max V c t r) * row2_val V c t jj d := by
  obtain ⟨em, el, ea⟩ := scratch2_first V c t h0
  have hkey := coord2_key t
  have hm : row2_max V c t r = max ⊥ (row2_bmax V c t r) := by
    unfold row2_max row2_bmax
    refine (congrFun em (ix2 r 0)).trans ((step2_max _ _ _ _ _ r).trans ?_)
    rw [k2_pay4_apply, hkey]
  refine ⟨hm, ?_, ?_⟩
  · rw [hm]
    unfold row2_norm row2_logit row2_bmax
    refine (congrFun el (ix2 r 0)).trans ((step2_norm _ _ _ _ _ _ r).trans ?_)
    rw [k2_pay4_apply, k2_pay5_apply, hkey]
  · rw [hm]
    unfold row2_acc row2_logit row2_bmax row2_val
    refine (congrFun ea (ix2 r d)).trans ((step2_acc _ _ _ _ _ _ _ r d).trans ?_)
    rw [k2_pay4_apply, k2_pay6_apply, hkey]

theorem state2_next (c : Dev nD) (t t' : Fin cfg2.N) (h0 : ¬t.val % 8 = 0) (hp : t'.val + 1 = t.val) (r : Fin 1024) (d : Fin 2048) :
    row2_max V c t r = max (row2_max V c t' r) (row2_bmax V c t r)
    ∧ row2_norm V c t r = Ideal.exp (row2_max V c t' r - row2_max V c t r) * row2_norm V c t' r
        + ∑ jj : Fin 512, Ideal.exp (row2_logit V c t r jj - row2_max V c t r)
    ∧ row2_acc V c t r d = Ideal.exp (row2_max V c t' r - row2_max V c t r) * row2_acc V c t' r d
        + ∑ jj : Fin 512, Ideal.exp (row2_logit V c t r jj - row2_max V c t r) * row2_val V c t jj d := by
  obtain ⟨em, el, ea⟩ := scratch2_next V c t t' h0 hp
  have hkey := coord2_key t
  have hm : row2_max V c t r = max (row2_max V c t' r) (row2_bmax V c t r) := by
    unfold row2_max row2_bmax
    refine (congrFun em (ix2 r 0)).trans ((step2_max _ _ _ _ _ r).trans ?_)
    rw [hkey]
  refine ⟨hm, ?_, ?_⟩
  · rw [hm]
    unfold row2_norm row2_max row2_logit row2_bmax
    refine (congrFun el (ix2 r 0)).trans ((step2_norm _ _ _ _ _ _ r).trans ?_)
    rw [hkey]
  · rw [hm]
    unfold row2_acc row2_max row2_logit row2_bmax row2_val
    refine (congrFun ea (ix2 r d)).trans ((step2_acc _ _ _ _ _ _ _ r d).trans ?_)
    rw [hkey]

theorem row2_sblk_eq_logit (kv : ℕ) (x0 : Vec Ideal S1024x2048 .f32) (x1 : Vec Ideal S512x2048 .f32) (x3 : Vec Ideal S1024x1 .i32)
    (r : Fin 1024) (jj : Fin 512) (q k : Fin 4096 → Fin 2048 → EReal) (lens : Words 4096) (R J : Fin 4096)
    (h0 : ∀ cc : Fin 2048, x0 (ix2 r cc) = q R cc) (h1 : ∀ cc : Fin 2048, x1 (ix2 jj cc) = k J cc)
    (h3 : x3 (ix2 r 0) = lens (ix1 R))
    (hw : BitVec.ofNat 32 kv * 512#32 + BitVec.ofNat 32 jj.val = BitVec.ofNat 32 J.val) :
    sblk kv x0 x1 x3 r jj = logit q k lens R J := by
  unfold sblk logit
  refine if_congr ?_ (Finset.sum_congr rfl fun cc _ => by rw [h0, h1]) rfl
  rw [h3, hw]
  exact Iff.rfl

theorem row2_logit_eq (c : Dev nD) (q k : Fin 4096 → Fin 2048 → EReal) (lens : Words 4096)
    (hq : ∀ (R : Fin 4096) (cc : Fin 2048), @Eq EReal (V c (Pipeline.arrRef spec2 0) (ix2 R cc)) (q R cc))
    (hk : ∀ (R : Fin 4096) (cc : Fin 2048), @Eq EReal (V c (Pipeline.arrRef spec2 1) (ix2 R cc)) (k R cc))
    (hl : ∀ R : Fin 4096, @Eq (BitVec 32) (V c (Pipeline.arrRef spec2 3) (ix2 R (0 : Fin 1))) (lens (ix1 R)))
    (t : Fin cfg2.N) (r : Fin 1024) (jj : Fin 512)
    (hRb : 1024 * (t.val / 8) + r.val < 4096) (hJb : 512 * (t.val % 8) + jj.val < 4096) :
    row2_logit V c t r jj = logit q k lens ⟨1024 * (t.val / 8) + r.val, hRb⟩ ⟨512 * (t.val % 8) + jj.val, hJb⟩ := by
  unfold row2_logit
  exact row2_sblk_eq_logit (t.val % 8) (iblk2 V c 0 t) (iblk2 V c 1 t) (iblk2 V c 3 t) r jj q k lens _ _
    (fun cc => (iblk2_0_apply V c t r cc).trans (hq _ cc)) (fun cc => (iblk2_1_apply V c t jj cc).trans (hk _ cc))
    ((iblk2_3_apply V c t r).trans (hl _)) (key_word (t.val % 8) (by omega) jj)

theorem row2_val_eq (c : Dev nD) (v : Fin 4096 → Fin 2048 → EReal)
    (hv : ∀ (R : Fin 4096) (d : Fin 2048), @Eq EReal (V c (Pipeline.arrRef spec2 2) (ix2 R d)) (v R d))
    (t : Fin cfg2.N) (jj : Fin 512) (d : Fin 2048) (hJb : 512 * (t.val % 8) + jj.val < 4096) :
    row2_val V c t jj d = v ⟨512 * (t.val % 8) + jj.val, hJb⟩ d := by
  unfold row2_val
  exact (iblk2_2_apply V c t jj d).trans (hv _ d)

def pt2 (R : Fin 4096) (kv : Fin 8) : Fin cfg2.N :=
  ⟨8 * (R.val / 1024) + kv.val, by have := R.isLt; have := kv.isLt; have : cfg2.N = 32 := N_2; omega⟩

theorem flash2_value (c : Dev nD) (q k v : Fin 4096 → Fin 2048 → EReal) (lens : Words 4096)
    (hq : ∀ (R : Fin 4096) (cc : Fin 2048), @Eq EReal (V c (Pipeline.arrRef spec2 0) (ix2 R cc)) (q R cc))
    (hk : ∀ (R : Fin 4096) (cc : Fin 2048), @Eq EReal (V c (Pipeline.arrRef spec2 1) (ix2 R cc)) (k R cc))
    (hv : ∀ (R : Fin 4096) (d : Fin 2048), @Eq EReal (V c (Pipeline.arrRef spec2 2) (ix2 R d)) (v R d))
    (hl : ∀ R : Fin 4096, @Eq (BitVec 32) (V c (Pipeline.arrRef spec2 3) (ix2 R (0 : Fin 1))) (lens (ix1 R)))
    (hqr : ∀ R cc, ∃ y : ℝ, q R cc = (y : EReal)) (hkr : ∀ R cc, ∃ y : ℝ, k R cc = (y : EReal)) (hvr : ∀ R d, ∃ y : ℝ, v R d = (y : EReal))
    (R : Fin 4096) (d : Fin 2048) :
    ∃ sh : ℝ, @Eq EReal ((dat2 (F := Ideal) V c).arrAt 4 cfg2.N (ix2 R d)) (attnAcc q k v lens (fun _ => (sh : EReal)) R d) := by
  have hR4 := R.isLt
  have hlog : ∀ (kv : Fin 8) (jj : Fin 512),
      row2_logit V c (pt2 R kv) ⟨R.val % 1024, Nat.mod_lt _ (by decide)⟩ jj
        = logit q k lens R ⟨512 * kv.val + jj.val, by have := kv.isLt; have := jj.isLt; omega⟩ := fun kv jj =>
    (row2_logit_eq V c q k lens hq hk hl (pt2 R kv) ⟨R.val % 1024, Nat.mod_lt _ (by decide)⟩ jj
        (by have := kv.isLt; show 1024 * ((8 * (R.val / 1024) + kv.val) / 8) + R.val % 1024 < 4096; omega)
        (by have := kv.isLt; have := jj.isLt; show 512 * ((8 * (R.val / 1024) + kv.val) % 8) + jj.val < 4096; omega)).trans
      (congrArg₂ (logit q k lens)
        (Fin.ext (by have := kv.isLt; show 1024 * ((8 * (R.val / 1024) + kv.val) / 8) + R.val % 1024 = R.val; omega))
        (Fin.ext (by have := kv.isLt; show 512 * ((8 * (R.val / 1024) + kv.val) % 8) + jj.val = 512 * kv.val + jj.val; omega)))
  have hval : ∀ (kv : Fin 8) (jj : Fin 512),
      row2_val V c (pt2 R kv) jj d = v ⟨512 * kv.val + jj.val, by have := kv.isLt; have := jj.isLt; omega⟩ d := fun kv jj =>
    (row2_val_eq V c v hv (pt2 R kv) jj d
        (by have := kv.isLt; have := jj.isLt; show 512 * ((8 * (R.val / 1024) + kv.val) % 8) + jj.val < 4096; omega)).trans
      (congrArg (fun J => v J d)
        (Fin.ext (by have := kv.isLt; show 512 * ((8 * (R.val / 1024) + kv.val) % 8) + jj.val = 512 * kv.val + jj.val; omega)))
  have hLr : ∀ j, ∃ y : ℝ, logit q k lens R j = (y : EReal) := Cert.Finite.logit_real q k lens hqr hkr R
  have hbr : ∀ kv : Fin 8, ∃ y : ℝ, row2_bmax V c (pt2 R kv) ⟨R.val % 1024, Nat.mod_lt _ (by decide)⟩ = (y : EReal) := fun kv => by
    unfold row2_bmax
    refine blockMax_real _ _ _ _ _ (fun jj => ?_)
    have h := hlog kv jj
    unfold row2_logit at h
    rw [h]
    exact hLr _
  have hrow : ∃ sh : ℝ,
      row2_acc V c (pt2 R 7) ⟨R.val % 1024, Nat.mod_lt _ (by decide)⟩ d
          * Ideal.div 1 (row2_norm V c (pt2 R 7) ⟨R.val % 1024, Nat.mod_lt _ (by decide)⟩)
        = (∑ j : Fin 4096, Ideal.exp (logit q k lens R j - (sh : EReal)) * v j d)
          * Ideal.div 1 (∑ j : Fin 4096, Ideal.exp (logit q k lens R j - (sh : EReal))) := by
    refine Cert.OnlineBlocks.online_row (fun j => logit q k lens R j) (fun j => v j d) hLr (fun j => hvr j d)
      (fun kv => row2_bmax V c (pt2 R kv) ⟨R.val % 1024, Nat.mod_lt _ (by decide)⟩) hbr
      (fun kv jj => ⟨512 * kv.val + jj.val, by have := kv.isLt; have := jj.isLt; omega⟩) (fun _ _ => rfl)
      (fun kv => row2_max V c (pt2 R kv) ⟨R.val % 1024, Nat.mod_lt _ (by decide)⟩)
      (fun kv => row2_norm V c (pt2 R kv) ⟨R.val % 1024, Nat.mod_lt _ (by decide)⟩)
      (fun kv => row2_acc V c (pt2 R kv) ⟨R.val % 1024, Nat.mod_lt _ (by decide)⟩ d) ?_ ?_
    · obtain ⟨a, b, e⟩ := state2_first V c (pt2 R 0) (by show (8 * (R.val / 1024) + 0) % 8 = 0; omega)
        ⟨R.val % 1024, Nat.mod_lt _ (by decide)⟩ d
      refine ⟨a, b.trans ?_, e.trans ?_⟩
      · exact congrArg (_ + ·) (Finset.sum_congr rfl fun jj _ => by rw [hlog])
      · exact congrArg (_ + ·) (Finset.sum_congr rfl fun jj _ => by rw [hlog, hval])
    · intro kp kv hkk
      have hkv := kv.isLt
      obtain ⟨a, b, e⟩ := state2_next V c (pt2 R kv) (pt2 R kp)
        (by show ¬(8 * (R.val / 1024) + kv.val) % 8 = 0; omega)
        (by show 8 * (R.val / 1024) + kp.val + 1 = 8 * (R.val / 1024) + kv.val; omega)
        ⟨R.val % 1024, Nat.mod_lt _ (by decide)⟩ d
      refine ⟨a, b.trans ?_, e.trans ?_⟩
      · exact congrArg (_ + ·) (Finset.sum_congr rfl fun jj _ => by rw [hlog])
      · exact congrArg (_ + ·) (Finset.sum_congr rfl fun jj _ => by rw [hlog, hval])
  obtain ⟨sh, hsh⟩ := hrow
  refine ⟨sh, (arr2_4_apply V c R d).trans ?_⟩
  have hlast := out2_last V c (pt2 R 7) (pt2 R 6) (by show (8 * (R.val / 1024) + 7) % 8 = 7; omega)
    (by show 8 * (R.val / 1024) + 6 + 1 = 8 * (R.val / 1024) + 7; omega) ⟨R.val % 1024, Nat.mod_lt _ (by decide)⟩ d
  rw [outsAt2_congr V c _ (pt2 R 7).isLt (show 8 * (R.val / 1024) + 7 = (pt2 R 7).val from rfl)]
  show _ = (∑ j : Fin 4096, Ideal.exp (logit q k lens R j - (sh : EReal)) * v j d)
      * Ideal.div 1 (∑ j : Fin 4096, Ideal.exp (logit q k lens R j - (sh : EReal)))
  exact hlast.trans hsh

end Cert.KernelIdeal.Hand

end
-- ==== Proof.KI.FlashBlocks3.lean ====
import proofs.«404947_j13649406066966_2_alg».proof.Proof.KI.FlashRegion3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

theorem winIdx3_0 : ∀ t : Fin cfg3.N, win3_0.index t (0 : Fin 2) = t.val / 8 ∧ win3_0.index t (1 : Fin 2) = 0 :=
  (by decide +kernel : ∀ t : Fin grid3.N, win3_0.index t (0 : Fin 2) = t.val / 8 ∧ win3_0.index t (1 : Fin 2) = 0)

theorem winIdx3_1 : ∀ t : Fin cfg3.N, win3_1.index t (0 : Fin 2) = t.val % 8 ∧ win3_1.index t (1 : Fin 2) = 0 :=
  (by decide +kernel : ∀ t : Fin grid3.N, win3_1.index t (0 : Fin 2) = t.val % 8 ∧ win3_1.index t (1 : Fin 2) = 0)

theorem winIdx3_2 : ∀ t : Fin cfg3.N, win3_2.index t (0 : Fin 2) = t.val % 8 ∧ win3_2.index t (1 : Fin 2) = 0 :=
  (by decide +kernel : ∀ t : Fin grid3.N, win3_2.index t (0 : Fin 2) = t.val % 8 ∧ win3_2.index t (1 : Fin 2) = 0)

theorem winIdx3_3 : ∀ t : Fin cfg3.N, win3_3.index t (0 : Fin 2) = t.val / 8 ∧ win3_3.index t (1 : Fin 2) = 0 :=
  (by decide +kernel : ∀ t : Fin grid3.N, win3_3.index t (0 : Fin 2) = t.val / 8 ∧ win3_3.index t (1 : Fin 2) = 0)

theorem winIdx3_4 : ∀ t : Fin cfg3.N, win3_4.index t (0 : Fin 2) = t.val / 8 ∧ win3_4.index t (1 : Fin 2) = 0 :=
  (by decide +kernel : ∀ t : Fin grid3.N, win3_4.index t (0 : Fin 2) = t.val / 8 ∧ win3_4.index t (1 : Fin 2) = 0)

theorem iblk3_0_apply (c : Dev nD) (t : Fin cfg3.N) (r : Fin 1024) (cc : Fin 2048) :
    (iblk3 V c 0 t : S1024x2048.Idx → Elt F .f32) (ix2 r cc)
      = (V c (Pipeline.arrRef spec3 0) : S4096x2048.Idx → Elt F .f32)
          (ix2 (⟨1024 * (t.val / 8) + r.val, by have := t.isLt; have : cfg3.N = 32 := N_3; have := r.isLt; omega⟩ : Fin 4096) cc) := by
  obtain ⟨e0, e1⟩ := winIdx3_0 t
  unfold iblk3
  rw [View.read_apply]
  show V c (Pipeline.arrRef spec3 0) (((cfg3.win 0).blk t).view.emb (ix2 r cc)) = V c (Pipeline.arrRef spec3 0) _
  refine congrArg (V c (Pipeline.arrRef spec3 0)) (funext fun a => Fin.ext ?_)
  match a with
  | ⟨0, _⟩ => show win3_0.index t (0 : Fin 2) * 1024 + 1 * r.val = 1024 * (t.val / 8) + r.val; omega
  | ⟨1, _⟩ => show win3_0.index t (1 : Fin 2) * 2048 + 1 * cc.val = cc.val; omega

theorem iblk3_1_apply (c : Dev nD) (t : Fin cfg3.N) (j : Fin 512) (cc : Fin 2048) :
    (iblk3 V c 1 t : S512x2048.Idx → Elt F .f32) (ix2 j cc)
      = (V c (Pipeline.arrRef spec3 1) : S4096x2048.Idx → Elt F .f32)
          (ix2 (⟨512 * (t.val % 8) + j.val, by have := j.isLt; omega⟩ : Fin 4096) cc) := by
  obtain ⟨e0, e1⟩ := winIdx3_1 t
  unfold iblk3
  rw [View.read_apply]
  show V c (Pipeline.arrRef spec3 1) (((cfg3.win 1).blk t).view.emb (ix2 j cc)) = V c (Pipeline.arrRef spec3 1) _
  refine congrArg (V c (Pipeline.arrRef spec3 1)) (funext fun a => Fin.ext ?_)
  match a with
  | ⟨0, _⟩ => show win3_1.index t (0 : Fin 2) * 512 + 1 * j.val = 512 * (t.val % 8) + j.val; omega
  | ⟨1, _⟩ => show win3_1.index t (1 : Fin 2) * 2048 + 1 * cc.val = cc.val; omega

theorem iblk3_2_apply (c : Dev nD) (t : Fin cfg3.N) (j : Fin 512) (d : Fin 2048) :
    (iblk3 V c 2 t : S512x2048.Idx → Elt F .bf16) (ix2 j d)
      = (V c (Pipeline.arrRef spec3 2) : S4096x2048.Idx → Elt F .bf16)
          (ix2 (⟨512 * (t.val % 8) + j.val, by have := j.isLt; omega⟩ : Fin 4096) d) := by
  obtain ⟨e0, e1⟩ := winIdx3_2 t
  unfold iblk3
  rw [View.read_apply]
  show V c (Pipeline.arrRef spec3 2) (((cfg3.win 2).blk t).view.emb (ix2 j d)) = V c (Pipeline.arrRef spec3 2) _
  refine congrArg (V c (Pipeline.arrRef spec3 2)) (funext fun a => Fin.ext ?_)
  match a with
  | ⟨0, _⟩ => show win3_2.index t (0 : Fin 2) * 512 + 1 * j.val = 512 * (t.val % 8) + j.val; omega
  | ⟨1, _⟩ => show win3_2.index t (1 : Fin 2) * 2048 + 1 * d.val = d.val; omega

theorem iblk3_3_apply (c : Dev nD) (t : Fin cfg3.N) (r : Fin 1024) :
    (iblk3 V c 3 t : S1024x1.Idx → Elt F .i32) (ix2 r (0 : Fin 1))
      = (V c (Pipeline.arrRef spec3 3) : S4096x1.Idx → Elt F .i32)
          (ix2 (⟨1024 * (t.val / 8) + r.val, by have := t.isLt; have : cfg3.N = 32 := N_3; have := r.isLt; omega⟩ : Fin 4096) (0 : Fin 1)) := by
  obtain ⟨e0, e1⟩ := winIdx3_3 t
  unfold iblk3
  rw [View.read_apply]
  show V c (Pipeline.arrRef spec3 3) (((cfg3.win 3).blk t).view.emb (ix2 r (0 : Fin 1))) = V c (Pipeline.arrRef spec3 3) _
  refine congrArg (V c (Pipeline.arrRef spec3 3)) (funext fun a => Fin.ext ?_)
  match a with
  | ⟨0, _⟩ => show win3_3.index t (0 : Fin 2) * 1024 + 1 * r.val = 1024 * (t.val / 8) + r.val; omega
  | ⟨1, _⟩ => show win3_3.index t (1 : Fin 2) * 1 + 1 * 0 = 0; omega

theorem outsAt3_congr (c : Dev nD) {n n' : ℕ} (h : n < cfg3.N) (h' : n' < cfg3.N) (e : n = n') :
    outsAt3 V c n h = outsAt3 V c n' h' := by
  subst e; rfl

def G3_4 (c : Dev nD) : S4096x2048.Idx → Elt F .f32 := fun i =>
  (outsAt3 V c (8 * ((i 0).val / 1024) + 7) (by have := idx2_lt0 i; have : cfg3.N = 32 := N_3; omega)).1
    (ix2 (⟨(i 0).val % 1024, Nat.mod_lt _ (by decide)⟩ : Fin 1024) (i 1))

theorem G3_4_at (c : Dev nD) (t : Fin cfg3.N) (h7 : t.val % 8 = 7) (i : S4096x2048.Idx) (j : S1024x2048.Idx)
    (h0 : (i 0).val = t.val / 8 * 1024 + 1 * (j 0).val) (h1 : (i 1).val = 0 * 2048 + 1 * (j 1).val) :
    G3_4 V c i = (outsAt3 V c t.val t.isLt).1 j := by
  have hj0 := idx2_lt0 j
  unfold G3_4
  rw [outsAt3_congr V c _ t.isLt (show 8 * ((i 0).val / 1024) + 7 = t.val by omega)]
  refine congrArg (outsAt3 V c t.val t.isLt).1 (funext fun a => Fin.ext ?_)
  match a with
  | ⟨0, _⟩ => show (i 0).val % 1024 = (j 0).val; omega
  | ⟨1, _⟩ => show (i 1).val = (j 1).val; omega

theorem flushed3_4_eq (c : Dev nD) (t : Fin cfg3.N) (hf : (cfg3.win 4).flush t = true) :
    (dat3 V c).flushed 4 t = ((cfg3.win 4).blk t).view.read (Elt F) (G3_4 V c) := by
  have h7 : t.val % 8 = 7 := (flush3_4 t).mp hf
  obtain ⟨e0, e1⟩ := winIdx3_4 t
  show (cfg3.win 4).cut (grid3.coords t) ((dat3 V c).after 4 t) = _
  rw [after3_4]
  funext j
  rw [View.read_apply]
  show (outsAt3 V c t.val t.isLt).1 j = G3_4 V c (((cfg3.win 4).blk t).view.emb j)
  refine (G3_4_at V c t h7 _ j ?_ ?_).symm
  · show win3_4.index t (0 : Fin 2) * 1024 + 1 * (j 0).val = t.val / 8 * 1024 + 1 * (j 0).val
    rw [e0]
  · show win3_4.index t (1 : Fin 2) * 2048 + 1 * (j 1).val = 0 * 2048 + 1 * (j 1).val
    rw [e1]

theorem cover3_4 (i : S4096x2048.Idx) :
    ∃ t : Fin cfg3.N, (cfg3.win 4).flush t = true ∧ i ∈ ((cfg3.win 4).blk t).view.set := by
  have hi0 := idx2_lt0 i
  have hN : cfg3.N = 32 := N_3
  let t : Fin cfg3.N := ⟨8 * ((i 0).val / 1024) + 7, by omega⟩
  have ht : t.val = 8 * ((i 0).val / 1024) + 7 := rfl
  obtain ⟨e0, e1⟩ := winIdx3_4 t
  refine ⟨t, (flush3_4 t).mpr (by rw [ht]; omega), ?_⟩
  have hemb : ((cfg3.win 4).blk t).view.emb (ix2 (⟨(i 0).val % 1024, Nat.mod_lt _ (by decide)⟩ : Fin 1024) (i 1)) = i := by
    funext a
    apply Fin.ext
    match a with
    | ⟨0, _⟩ => show win3_4.index t (0 : Fin 2) * 1024 + 1 * ((i 0).val % 1024) = (i 0).val; rw [e0, ht]; omega
    | ⟨1, _⟩ => show win3_4.index t (1 : Fin 2) * 2048 + 1 * (i 1).val = (i 1).val; rw [e1]; omega
  have hmem := ((cfg3.win 4).blk t).view.emb_mem_set (ix2 (⟨(i 0).val % 1024, Nat.mod_lt _ (by decide)⟩ : Fin 1024) (i 1))
  rw [hemb] at hmem
  exact hmem

theorem arr3_4_eq (c : Dev nD) : (dat3 V c).arrAt 4 cfg3.N = G3_4 V c :=
  (dat3 V c).arrAt_eq_of_cover 4 (G3_4 V c) (flushed3_4_eq V c) cover3_4

theorem arr3_4_apply (c : Dev nD) (R : Fin 4096) (d : Fin 2048) :
    ((dat3 V c).arrAt 4 cfg3.N : S4096x2048.Idx → Elt F .f32) (ix2 R d)
      = (outsAt3 V c (8 * (R.val / 1024) + 7) (by have := R.isLt; have : cfg3.N = 32 := N_3; omega)).1
          (ix2 (⟨R.val % 1024, Nat.mod_lt _ (by decide)⟩ : Fin 1024) d) :=
  congrFun (arr3_4_eq V c) (ix2 R d)

end Cert.KernelIdeal.Hand

end
-- ==== Proof.KI.FlashValue3.lean ====
import proofs.«404947_j13649406066966_2_alg».proof.Proof.KI.FlashPieces2
import proofs.«404947_j13649406066966_2_alg».proof.Proof.KI.FlashPay2
import proofs.«404947_j13649406066966_2_alg».proof.Proof.KI.FlashBlocks3
import proofs.«404947_j13649406066966_2_alg».proof.Proof.OnlineBlocks
import proofs.«404947_j13649406066966_2_alg».proof.Proof.Spec
import proofs.«404947_j13649406066966_2_alg».proof.Proof.Finite
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable (V : (c : Dev nD) → (b : Ref sig .tc) → Buf (Elt Ideal) ((c : Thread nD τ).loc b))

theorem step3_max (i : grid3.Coords) (x0 : Vec Ideal S1024x2048 .f32) (x1 : Vec Ideal S512x2048 .f32)
    (x3 : Vec Ideal S1024x1 .i32) (m : Vec Ideal S1024x1 .f32) (r : Fin 1024) :
    k2_pay2 (F := Ideal) (k2_pay8 (F := Ideal) i x0 x1 x3 m) (ix2 r 0)
      = max (m (ix2 r 0)) (blockMax (i 1).val x0 x1 x3 r) :=
  (congrFun (k2_pay2_eq (k2_pay8 (F := Ideal) i x0 x1 x3 m)) (ix2 r 0)).trans (k2_pay8_apply i x0 x1 x3 m r)

theorem step3_norm (i : grid3.Coords) (x0 : Vec Ideal S1024x2048 .f32) (x1 : Vec Ideal S512x2048 .f32)
    (x3 : Vec Ideal S1024x1 .i32) (m l : Vec Ideal S1024x1 .f32) (r : Fin 1024) :
    k2_pay11 (F := Ideal) i x0 x1 x3 m m l (ix2 r 0)
      = Ideal.exp (m (ix2 r 0) - max (m (ix2 r 0)) (blockMax (i 1).val x0 x1 x3 r)) * l (ix2 r 0)
        + ∑ j : Fin 512, Ideal.exp (sblk (i 1).val x0 x1 x3 r j - max (m (ix2 r 0)) (blockMax (i 1).val x0 x1 x3 r)) := by
  refine (k2_pay11_apply i x0 x1 x3 m m l r).trans ?_
  rw [k2_pay9_apply, k2_pay8_apply]
  refine congrArg (_ + ·) (Finset.sum_congr rfl fun j _ => ?_)
  rw [k2_pay10_apply, k2_pay8_apply]

theorem step3_acc (i : grid3.Coords) (x0 : Vec Ideal S1024x2048 .f32) (x1 : Vec Ideal S512x2048 .f32)
    (x2 : Vec Ideal S512x2048 .bf16) (x3 : Vec Ideal S1024x1 .i32) (m : Vec Ideal S1024x1 .f32)
    (acc : Vec Ideal S1024x2048 .f32) (r : Fin 1024) (d : Fin 2048) :
    k2_pay1 (F := Ideal) (k2_pay9 (F := Ideal) i x0 x1 x3 m m) (k2_pay10 (F := Ideal) i x0 x1 x3 m) x2 acc (ix2 r d)
      = Ideal.exp (m (ix2 r 0) - max (m (ix2 r 0)) (blockMax (i 1).val x0 x1 x3 r)) * acc (ix2 r d)
        + ∑ j : Fin 512, Ideal.exp (sblk (i 1).val x0 x1 x3 r j - max (m (ix2 r 0)) (blockMax (i 1).val x0 x1 x3 r))
            * x2 (ix2 j d) := by
  refine (k2_pay1_apply _ _ x2 acc r d).trans ?_
  rw [k2_pay9_apply, k2_pay8_apply]
  refine congrArg (_ + ·) (Finset.sum_congr rfl fun j _ => ?_)
  rw [k2_pay10_apply, k2_pay8_apply]

theorem coord3_key : ∀ t : Fin cfg3.N, ((grid3.coords t) 1).val = t.val % 8 :=
  (by decide +kernel : ∀ t : Fin grid3.N, ((grid3.coords t) 1).val = t.val % 8)

def row3_max (c : Dev nD) (t : Fin cfg3.N) (r : Fin 1024) : EReal := (outsAt3 V c t.val t.isLt).2.1 (ix2 r 0)

def row3_norm (c : Dev nD) (t : Fin cfg3.N) (r : Fin 1024) : EReal := (outsAt3 V c t.val t.isLt).2.2.1 (ix2 r 0)

def row3_acc (c : Dev nD) (t : Fin cfg3.N) (r : Fin 1024) (d : Fin 2048) : EReal := (outsAt3 V c t.val t.isLt).2.2.2 (ix2 r d)

def row3_logit (c : Dev nD) (t : Fin cfg3.N) (r : Fin 1024) (jj : Fin 512) : EReal :=
  sblk (t.val % 8) (iblk3 V c 0 t) (iblk3 V c 1 t) (iblk3 V c 3 t) r jj

def row3_bmax (c : Dev nD) (t : Fin cfg3.N) (r : Fin 1024) : EReal :=
  blockMax (t.val % 8) (iblk3 V c 0 t) (iblk3 V c 1 t) (iblk3 V c 3 t) r

def row3_val (c : Dev nD) (t : Fin cfg3.N) (jj : Fin 512) (d : Fin 2048) : EReal :=
  (iblk3 V c 2 t : S512x2048.Idx → Elt Ideal .bf16) (ix2 jj d)

theorem scratch3_first (c : Dev nD) (t : Fin cfg3.N) (h0 : t.val % 8 = 0) :
    (outsAt3 V c t.val t.isLt).2.1
        = k2_pay2 (F := Ideal) (k2_pay8 (F := Ideal) (grid3.coords t) (iblk3 V c 0 t) (iblk3 V c 1 t) (iblk3 V c 3 t) (k2_pay4 (F := Ideal)))
    ∧ (outsAt3 V c t.val t.isLt).2.2.1
        = k2_pay11 (F := Ideal) (grid3.coords t) (iblk3 V c 0 t) (iblk3 V c 1 t) (iblk3 V c 3 t) (k2_pay4 (F := Ideal)) (k2_pay4 (F := Ideal)) (k2_pay5 (F := Ideal))
    ∧ (outsAt3 V c t.val t.isLt).2.2.2
        = k2_pay1 (F := Ideal) (k2_pay9 (F := Ideal) (grid3.coords t) (iblk3 V c 0 t) (iblk3 V c 1 t) (iblk3 V c 3 t) (k2_pay4 (F := Ideal)) (k2_pay4 (F := Ideal)))
            (k2_pay10 (F := Ideal) (grid3.coords t) (iblk3 V c 0 t) (iblk3 V c 1 t) (iblk3 V c 3 t) (k2_pay4 (F := Ideal))) (iblk3 V c 2 t) (k2_pay6 (F := Ideal)) := by
  have h1 : ¬t.val % 8 = 7 := by omega
  refine ⟨?_, ?_, ?_⟩
  · rw [outsAt3_A V c t h0 h1]; dsimp only [outs2_A]; rw [sout2_A_0_eq]
  · rw [outsAt3_A V c t h0 h1]; dsimp only [outs2_A]; rw [sout2_A_1_eq]
  · rw [outsAt3_A V c t h0 h1]; dsimp only [outs2_A]; rw [sout2_A_2_eq]

theorem scratch3_next (c : Dev nD) (t t' : Fin cfg3.N) (h0 : ¬t.val % 8 = 0) (hp : t'.val + 1 = t.val) :
    (outsAt3 V c t.val t.isLt).2.1
        = k2_pay2 (F := Ideal) (k2_pay8 (F := Ideal) (grid3.coords t) (iblk3 V c 0 t) (iblk3 V c 1 t) (iblk3 V c 3 t) (outsAt3 V c t'.val t'.isLt).2.1)
    ∧ (outsAt3 V c t.val t.isLt).2.2.1
        = k2_pay11 (F := Ideal) (grid3.coords t) (iblk3 V c 0 t) (iblk3 V c 1 t) (iblk3 V c 3 t) (outsAt3 V c t'.val t'.isLt).2.1 (outsAt3 V c t'.val t'.isLt).2.1 (outsAt3 V c t'.val t'.isLt).2.2.1
    ∧ (outsAt3 V c t.val t.isLt).2.2.2
        = k2_pay1 (F := Ideal) (k2_pay9 (F := Ideal) (grid3.coords t) (iblk3 V c 0 t) (iblk3 V c 1 t) (iblk3 V c 3 t) (outsAt3 V c t'.val t'.isLt).2.1 (outsAt3 V c t'.val t'.isLt).2.1)
            (k2_pay10 (F := Ideal) (grid3.coords t) (iblk3 V c 0 t) (iblk3 V c 1 t) (iblk3 V c 3 t) (outsAt3 V c t'.val t'.isLt).2.1) (iblk3 V c 2 t) (outsAt3 V c t'.val t'.isLt).2.2.2 := by
  have hprev : outsAt3 V c (t.val - 1) (Nat.lt_of_le_of_lt (Nat.sub_le _ _) t.isLt) = outsAt3 V c t'.val t'.isLt :=
    outsAt3_congr V c _ _ (by omega)
  by_cases h1 : t.val % 8 = 7
  · refine ⟨?_, ?_, ?_⟩
    · rw [outsAt3_C V c t h0 h1]; dsimp only [outs2_C]; rw [sout2_C_0_eq, hprev]
    · rw [outsAt3_C V c t h0 h1]; dsimp only [outs2_C]; rw [sout2_C_1_eq, hprev]
    · rw [outsAt3_C V c t h0 h1]; dsimp only [outs2_C]; rw [sout2_C_2_eq, hprev]
  · refine ⟨?_, ?_, ?_⟩
    · rw [outsAt3_B V c t h0 h1]; dsimp only [outs2_B]; rw [sout2_B_0_eq, hprev]
    · rw [outsAt3_B V c t h0 h1]; dsimp only [outs2_B]; rw [sout2_B_1_eq, hprev]
    · rw [outsAt3_B V c t h0 h1]; dsimp only [outs2_B]; rw [sout2_B_2_eq, hprev]

theorem out3_last (c : Dev nD) (t t' : Fin cfg3.N) (h7 : t.val % 8 = 7) (hp : t'.val + 1 = t.val) (r : Fin 1024) (d : Fin 2048) :
    (outsAt3 V c t.val t.isLt).1 (ix2 r d) = row3_acc V c t r d * Ideal.div 1 (row3_norm V c t r) := by
  have h0 : ¬t.val % 8 = 0 := by omega
  obtain ⟨-, el, ea⟩ := scratch3_next V c t t' h0 hp
  have hprev : outsAt3 V c (t.val - 1) (Nat.lt_of_le_of_lt (Nat.sub_le _ _) t.isLt) = outsAt3 V c t'.val t'.isLt :=
    outsAt3_congr V c _ _ (by omega)
  have eo : (outsAt3 V c t.val t.isLt).1
      = k2_pay3 (F := Ideal) (outsAt3 V c t.val t.isLt).2.2.2 (outsAt3 V c t.val t.isLt).2.2.1 := by
    rw [ea, el, outsAt3_C V c t h0 h7]; dsimp only [outs2_C]; rw [out2_C_4_eq, hprev]
  unfold row3_acc row3_norm
  exact (congrFun eo (ix2 r d)).trans (k2_pay3_apply _ _ r d)

theorem state3_first (c : Dev nD) (t : Fin cfg3.N) (h0 : t.val % 8 = 0) (r : Fin 1024) (d : Fin 2048) :
    row3_max V c t r = max ⊥ (row3_bmax V c t r)
    ∧ row3_norm V c t r = Ideal.exp (⊥ - row3_max V c t r) * 0
        + ∑ jj : Fin 512, Ideal.exp (row3_logit V c t r jj - row3_max V c t r)
    ∧ row3_acc V c t r d = Ideal.exp (⊥ - row3_max V c t r) * 0
        + ∑ jj : Fin 512, Ideal.exp (row3_logit V c t r jj - row3_max V c t r) * row3_val V c t jj d := by
  obtain ⟨em, el, ea⟩ := scratch3_first V c t h0
  have hkey := coord3_key t
  have hm : row3_max V c t r = max ⊥ (row3_bmax V c t r) := by
    unfold row3_max row3_bmax
    refine (congrFun em (ix2 r 0)).trans ((step3_max _ _ _ _ _ r).trans ?_)
    rw [k2_pay4_apply, hkey]
  refine ⟨hm, ?_, ?_⟩
  · rw [hm]
    unfold row3_norm row3_logit row3_bmax
    refine (congrFun el (ix2 r 0)).trans ((step3_norm _ _ _ _ _ _ r).trans ?_)
    rw [k2_pay4_apply, k2_pay5_apply, hkey]
  · rw [hm]
    unfold row3_acc row3_logit row3_bmax row3_val
    refine (congrFun ea (ix2 r d)).trans ((step3_acc _ _ _ _ _ _ _ r d).trans ?_)
    rw [k2_pay4_apply, k2_pay6_apply, hkey]

theorem state3_next (c : Dev nD) (t t' : Fin cfg3.N) (h0 : ¬t.val % 8 = 0) (hp : t'.val + 1 = t.val) (r : Fin 1024) (d : Fin 2048) :
    row3_max V c t r = max (row3_max V c t' r) (row3_bmax V c t r)
    ∧ row3_norm V c t r = Ideal.exp (row3_max V c t' r - row3_max V c t r) * row3_norm V c t' r
        + ∑ jj : Fin 512, Ideal.exp (row3_logit V c t r jj - row3_max V c t r)
    ∧ row3_acc V c t r d = Ideal.exp (row3_max V c t' r - row3_max V c t r) * row3_acc V c t' r d
        + ∑ jj : Fin 512, Ideal.exp (row3_logit V c t r jj - row3_max V c t r) * row3_val V c t jj d := by
  obtain ⟨em, el, ea⟩ := scratch3_next V c t t' h0 hp
  have hkey := coord3_key t
  have hm : row3_max V c t r = max (row3_max V c t' r) (row3_bmax V c t r) := by
    unfold row3_max row3_bmax
    refine (congrFun em (ix2 r 0)).trans ((step3_max _ _ _ _ _ r).trans ?_)
    rw [hkey]
  refine ⟨hm, ?_, ?_⟩
  · rw [hm]
    unfold row3_norm row3_max row3_logit row3_bmax
    refine (congrFun el (ix2 r 0)).trans ((step3_norm _ _ _ _ _ _ r).trans ?_)
    rw [hkey]
  · rw [hm]
    unfold row3_acc row3_max row3_logit row3_bmax row3_val
    refine (congrFun ea (ix2 r d)).trans ((step3_acc _ _ _ _ _ _ _ r d).trans ?_)
    rw [hkey]

theorem row3_sblk_eq_logit (kv : ℕ) (x0 : Vec Ideal S1024x2048 .f32) (x1 : Vec Ideal S512x2048 .f32) (x3 : Vec Ideal S1024x1 .i32)
    (r : Fin 1024) (jj : Fin 512) (q k : Fin 4096 → Fin 2048 → EReal) (lens : Words 4096) (R J : Fin 4096)
    (h0 : ∀ cc : Fin 2048, x0 (ix2 r cc) = q R cc) (h1 : ∀ cc : Fin 2048, x1 (ix2 jj cc) = k J cc)
    (h3 : x3 (ix2 r 0) = lens (ix1 R))
    (hw : BitVec.ofNat 32 kv * 512#32 + BitVec.ofNat 32 jj.val = BitVec.ofNat 32 J.val) :
    sblk kv x0 x1 x3 r jj = logit q k lens R J := by
  unfold sblk logit
  refine if_congr ?_ (Finset.sum_congr rfl fun cc _ => by rw [h0, h1]) rfl
  rw [h3, hw]
  exact Iff.rfl

theorem row3_logit_eq (c : Dev nD) (q k : Fin 4096 → Fin 2048 → EReal) (lens : Words 4096)
    (hq : ∀ (R : Fin 4096) (cc : Fin 2048), @Eq EReal (V c (Pipeline.arrRef spec3 0) (ix2 R cc)) (q R cc))
    (hk : ∀ (R : Fin 4096) (cc : Fin 2048), @Eq EReal (V c (Pipeline.arrRef spec3 1) (ix2 R cc)) (k R cc))
    (hl : ∀ R : Fin 4096, @Eq (BitVec 32) (V c (Pipeline.arrRef spec3 3) (ix2 R (0 : Fin 1))) (lens (ix1 R)))
    (t : Fin cfg3.N) (r : Fin 1024) (jj : Fin 512)
    (hRb : 1024 * (t.val / 8) + r.val < 4096) (hJb : 512 * (t.val % 8) + jj.val < 4096) :
    row3_logit V c t r jj = logit q k lens ⟨1024 * (t.val / 8) + r.val, hRb⟩ ⟨512 * (t.val % 8) + jj.val, hJb⟩ := by
  unfold row3_logit
  exact row3_sblk_eq_logit (t.val % 8) (iblk3 V c 0 t) (iblk3 V c 1 t) (iblk3 V c 3 t) r jj q k lens _ _
    (fun cc => (iblk3_0_apply V c t r cc).trans (hq _ cc)) (fun cc => (iblk3_1_apply V c t jj cc).trans (hk _ cc))
    ((iblk3_3_apply V c t r).trans (hl _)) (key_word (t.val % 8) (by omega) jj)

theorem row3_val_eq (c : Dev nD) (v : Fin 4096 → Fin 2048 → EReal)
    (hv : ∀ (R : Fin 4096) (d : Fin 2048), @Eq EReal (V c (Pipeline.arrRef spec3 2) (ix2 R d)) (v R d))
    (t : Fin cfg3.N) (jj : Fin 512) (d : Fin 2048) (hJb : 512 * (t.val % 8) + jj.val < 4096) :
    row3_val V c t jj d = v ⟨512 * (t.val % 8) + jj.val, hJb⟩ d := by
  unfold row3_val
  exact (iblk3_2_apply V c t jj d).trans (hv _ d)

def pt3 (R : Fin 4096) (kv : Fin 8) : Fin cfg3.N :=
  ⟨8 * (R.val / 1024) + kv.val, by have := R.isLt; have := kv.isLt; have : cfg3.N = 32 := N_3; omega⟩

theorem flash3_value (c : Dev nD) (q k v : Fin 4096 → Fin 2048 → EReal) (lens : Words 4096)
    (hq : ∀ (R : Fin 4096) (cc : Fin 2048), @Eq EReal (V c (Pipeline.arrRef spec3 0) (ix2 R cc)) (q R cc))
    (hk : ∀ (R : Fin 4096) (cc : Fin 2048), @Eq EReal (V c (Pipeline.arrRef spec3 1) (ix2 R cc)) (k R cc))
    (hv : ∀ (R : Fin 4096) (d : Fin 2048), @Eq EReal (V c (Pipeline.arrRef spec3 2) (ix2 R d)) (v R d))
    (hl : ∀ R : Fin 4096, @Eq (BitVec 32) (V c (Pipeline.arrRef spec3 3) (ix2 R (0 : Fin 1))) (lens (ix1 R)))
    (hqr : ∀ R cc, ∃ y : ℝ, q R cc = (y : EReal)) (hkr : ∀ R cc, ∃ y : ℝ, k R cc = (y : EReal)) (hvr : ∀ R d, ∃ y : ℝ, v R d = (y : EReal))
    (R : Fin 4096) (d : Fin 2048) :
    ∃ sh : ℝ, @Eq EReal ((dat3 (F := Ideal) V c).arrAt 4 cfg3.N (ix2 R d)) (attnAcc q k v lens (fun _ => (sh : EReal)) R d) := by
  have hR4 := R.isLt
  have hlog : ∀ (kv : Fin 8) (jj : Fin 512),
      row3_logit V c (pt3 R kv) ⟨R.val % 1024, Nat.mod_lt _ (by decide)⟩ jj
        = logit q k lens R ⟨512 * kv.val + jj.val, by have := kv.isLt; have := jj.isLt; omega⟩ := fun kv jj =>
    (row3_logit_eq V c q k lens hq hk hl (pt3 R kv) ⟨R.val % 1024, Nat.mod_lt _ (by decide)⟩ jj
        (by have := kv.isLt; show 1024 * ((8 * (R.val / 1024) + kv.val) / 8) + R.val % 1024 < 4096; omega)
        (by have := kv.isLt; have := jj.isLt; show 512 * ((8 * (R.val / 1024) + kv.val) % 8) + jj.val < 4096; omega)).trans
      (congrArg₂ (logit q k lens)
        (Fin.ext (by have := kv.isLt; show 1024 * ((8 * (R.val / 1024) + kv.val) / 8) + R.val % 1024 = R.val; omega))
        (Fin.ext (by have := kv.isLt; show 512 * ((8 * (R.val / 1024) + kv.val) % 8) + jj.val = 512 * kv.val + jj.val; omega)))
  have hval : ∀ (kv : Fin 8) (jj : Fin 512),
      row3_val V c (pt3 R kv) jj d = v ⟨512 * kv.val + jj.val, by have := kv.isLt; have := jj.isLt; omega⟩ d := fun kv jj =>
    (row3_val_eq V c v hv (pt3 R kv) jj d
        (by have := kv.isLt; have := jj.isLt; show 512 * ((8 * (R.val / 1024) + kv.val) % 8) + jj.val < 4096; omega)).trans
      (congrArg (fun J => v J d)
        (Fin.ext (by have := kv.isLt; show 512 * ((8 * (R.val / 1024) + kv.val) % 8) + jj.val = 512 * kv.val + jj.val; omega)))
  have hLr : ∀ j, ∃ y : ℝ, logit q k lens R j = (y : EReal) := Cert.Finite.logit_real q k lens hqr hkr R
  have hbr : ∀ kv : Fin 8, ∃ y : ℝ, row3_bmax V c (pt3 R kv) ⟨R.val % 1024, Nat.mod_lt _ (by decide)⟩ = (y : EReal) := fun kv => by
    unfold row3_bmax
    refine blockMax_real _ _ _ _ _ (fun jj => ?_)
    have h := hlog kv jj
    unfold row3_logit at h
    rw [h]
    exact hLr _
  have hrow : ∃ sh : ℝ,
      row3_acc V c (pt3 R 7) ⟨R.val % 1024, Nat.mod_lt _ (by decide)⟩ d
          * Ideal.div 1 (row3_norm V c (pt3 R 7) ⟨R.val % 1024, Nat.mod_lt _ (by decide)⟩)
        = (∑ j : Fin 4096, Ideal.exp (logit q k lens R j - (sh : EReal)) * v j d)
          * Ideal.div 1 (∑ j : Fin 4096, Ideal.exp (logit q k lens R j - (sh : EReal))) := by
    refine Cert.OnlineBlocks.online_row (fun j => logit q k lens R j) (fun j => v j d) hLr (fun j => hvr j d)
      (fun kv => row3_bmax V c (pt3 R kv) ⟨R.val % 1024, Nat.mod_lt _ (by decide)⟩) hbr
      (fun kv jj => ⟨512 * kv.val + jj.val, by have := kv.isLt; have := jj.isLt; omega⟩) (fun _ _ => rfl)
      (fun kv => row3_max V c (pt3 R kv) ⟨R.val % 1024, Nat.mod_lt _ (by decide)⟩)
      (fun kv => row3_norm V c (pt3 R kv) ⟨R.val % 1024, Nat.mod_lt _ (by decide)⟩)
      (fun kv => row3_acc V c (pt3 R kv) ⟨R.val % 1024, Nat.mod_lt _ (by decide)⟩ d) ?_ ?_
    · obtain ⟨a, b, e⟩ := state3_first V c (pt3 R 0) (by show (8 * (R.val / 1024) + 0) % 8 = 0; omega)
        ⟨R.val % 1024, Nat.mod_lt _ (by decide)⟩ d
      refine ⟨a, b.trans ?_, e.trans ?_⟩
      · exact congrArg (_ + ·) (Finset.sum_congr rfl fun jj _ => by rw [hlog])
      · exact congrArg (_ + ·) (Finset.sum_congr rfl fun jj _ => by rw [hlog, hval])
    · intro kp kv hkk
      have hkv := kv.isLt
      obtain ⟨a, b, e⟩ := state3_next V c (pt3 R kv) (pt3 R kp)
        (by show ¬(8 * (R.val / 1024) + kv.val) % 8 = 0; omega)
        (by show 8 * (R.val / 1024) + kp.val + 1 = 8 * (R.val / 1024) + kv.val; omega)
        ⟨R.val % 1024, Nat.mod_lt _ (by decide)⟩ d
      refine ⟨a, b.trans ?_, e.trans ?_⟩
      · exact congrArg (_ + ·) (Finset.sum_congr rfl fun jj _ => by rw [hlog])
      · exact congrArg (_ + ·) (Finset.sum_congr rfl fun jj _ => by rw [hlog, hval])
  obtain ⟨sh, hsh⟩ := hrow
  refine ⟨sh, (arr3_4_apply V c R d).trans ?_⟩
  have hlast := out3_last V c (pt3 R 7) (pt3 R 6) (by show (8 * (R.val / 1024) + 7) % 8 = 7; omega)
    (by show 8 * (R.val / 1024) + 6 + 1 = 8 * (R.val / 1024) + 7; omega) ⟨R.val % 1024, Nat.mod_lt _ (by decide)⟩ d
  rw [outsAt3_congr V c _ (pt3 R 7).isLt (show 8 * (R.val / 1024) + 7 = (pt3 R 7).val from rfl)]
  show _ = (∑ j : Fin 4096, Ideal.exp (logit q k lens R j - (sh : EReal)) * v j d)
      * Ideal.div 1 (∑ j : Fin 4096, Ideal.exp (logit q k lens R j - (sh : EReal)))
  exact hlast.trans hsh

end Cert.KernelIdeal.Hand

end
-- ==== Proof.RefValue.lean ====
import proofs.«404947_j13649406066966_2_alg».proof.Proof.Gen.ReferenceIdeal.Run
import proofs.«404947_j13649406066966_2_alg».proof.Proof.Gen.ReferenceIdeal.Read
import proofs.«404947_j13649406066966_2_alg».proof.Proof.Spec
import Idealize.ShloMosaic.PureOps.Ideal.Laws
import Idealize.ShloMosaic.PureOps.Reduce
import Idealize.ShloMosaic.Lib.ValueIdx
import Mathlib.Data.Finset.Fold
import Mathlib.Data.EReal.Basic

noncomputable section

namespace Cert.ReferenceIdeal.RefValue

open Cert.ReferenceIdeal Cert.ReferenceIdeal.Gen Cert.ReferenceIdeal.Read Cert.Spec Idealize.ShloMosaic Idealize.ShloMosaic.ValueIdx
  Idealize.ShloMosaic.TcCoe Idealize.SL.Sem Idealize.ShloMosaic.StableHlo

set_option quotPrecheck false in
local notation "TA" => ((⟨S4096x2048, .f32⟩ : BufTy).Contents (Elt Ideal))
set_option quotPrecheck false in
local notation "TW" => ((⟨S2048x2048, .f32⟩ : BufTy).Contents (Elt Ideal))
set_option quotPrecheck false in
local notation "TL" => ((⟨S4096, .i32⟩ : BufTy).Contents (Elt Ideal))

theorem ofBits_negBig : FloatOps.ofBits (F := Ideal) .f32 0xCF000000#32 = negBig := by
  show Ideal.ofBits .f32 0xCF000000#32 = negBig
  unfold negBig
  simp [Ideal.ofBits, Ideal.ieee, -EReal.coe_mul]; norm_num

theorem ofBits_negInf : FloatOps.ofBits (F := Ideal) .f32 0xFF800000#32 = (⊥ : EReal) := by
  show Ideal.ofBits .f32 0xFF800000#32 = ⊥
  simp [Ideal.ofBits, Ideal.ieee]

theorem ofBits_zero : FloatOps.ofBits (F := Ideal) .f32 0x00000000#32 = (0 : EReal) :=
  Ideal.ofBits_zero_f32

theorem v1_apply (x0 : TA) (x2 : TW) (r : Fin 4096) (c : Fin 2048) :
    val_main_v1 (F := Ideal) x0 x2 (ix2 r c) = proj x0 x2 r c := by
  rw [val_main_v1_apply]
  unfold proj
  refine Finset.sum_congr rfl fun k _ => ?_
  rw [val_main_v0_apply]
  congr 1 <;> exact congrArg _ (funext fun a => Fin.ext (by match a with | ⟨0, _⟩ => rfl | ⟨1, _⟩ => rfl))

theorem v3_apply (x0 : TA) (x3 : TW) (r : Fin 4096) (c : Fin 2048) :
    val_main_v3 (F := Ideal) x0 x3 (ix2 r c) = proj x0 x3 r c := by
  rw [val_main_v3_apply]
  unfold proj
  refine Finset.sum_congr rfl fun k _ => ?_
  rw [val_main_v2_apply]
  congr 1 <;> exact congrArg _ (funext fun a => Fin.ext (by match a with | ⟨0, _⟩ => rfl | ⟨1, _⟩ => rfl))

theorem v5_apply (x0 : TA) (x4 : TW) (r : Fin 4096) (c : Fin 2048) :
    val_main_v5 (F := Ideal) x0 x4 (ix2 r c) = proj x0 x4 r c := by
  rw [val_main_v5_apply]
  unfold proj
  refine Finset.sum_congr rfl fun k _ => ?_
  rw [val_main_v4_apply]
  congr 1 <;> exact congrArg _ (funext fun a => Fin.ext (by match a with | ⟨0, _⟩ => rfl | ⟨1, _⟩ => rfl))

theorem v7_apply (x1 : TA) (x5 : TW) (r : Fin 4096) (c : Fin 2048) :
    val_main_v7 (F := Ideal) x1 x5 (ix2 r c) = proj x1 x5 r c := by
  rw [val_main_v7_apply]
  unfold proj
  refine Finset.sum_congr rfl fun k _ => ?_
  rw [val_main_v6_apply]
  congr 1 <;> exact congrArg _ (funext fun a => Fin.ext (by match a with | ⟨0, _⟩ => rfl | ⟨1, _⟩ => rfl))

theorem v9_apply (x1 : TA) (x6 : TW) (r : Fin 4096) (c : Fin 2048) :
    val_main_v9 (F := Ideal) x1 x6 (ix2 r c) = proj x1 x6 r c := by
  rw [val_main_v9_apply]
  unfold proj
  refine Finset.sum_congr rfl fun k _ => ?_
  rw [val_main_v8_apply]
  congr 1 <;> exact congrArg _ (funext fun a => Fin.ext (by match a with | ⟨0, _⟩ => rfl | ⟨1, _⟩ => rfl))

theorem v11_apply (x1 : TA) (x7 : TW) (r : Fin 4096) (c : Fin 2048) :
    val_main_v11 (F := Ideal) x1 x7 (ix2 r c) = proj x1 x7 r c := by
  rw [val_main_v11_apply]
  unfold proj
  refine Finset.sum_congr rfl fun k _ => ?_
  rw [val_main_v10_apply]
  congr 1 <;> exact congrArg _ (funext fun a => Fin.ext (by match a with | ⟨0, _⟩ => rfl | ⟨1, _⟩ => rfl))

theorem mask_apply (x8 : TL) (r j : Fin 4096) :
    val_main_v17 (F := Ideal) x8 (ix2 r j) = if visible x8 r j then 1#1 else 0#1 := by
  rw [val_main_v17_apply, val_main_v15_apply, val_main_v13_apply, val_main_v12_apply, val_main_v16_apply, val_main_v14_apply]
  have e : idx_main_v14 (idx_main_v16 (ix2 r j)) = ix1 r :=
    funext fun a => Fin.ext (by match a with | ⟨0, _⟩ => rfl)
  rw [e]
  by_cases h : visible x8 r j
  · rw [if_pos h]
    have h' : (BitVec.ofNat 32 j.val).slt (x8 (ix1 r)) = true := h
    show BitVec.ofBool ((BitVec.ofNat 32 j.val).slt (x8 (ix1 r))) = 1#1
    rw [h']; rfl
  · rw [if_neg h]
    have h' : (BitVec.ofNat 32 j.val).slt (x8 (ix1 r)) = false := Bool.eq_false_iff.2 h
    show BitVec.ofBool ((BitVec.ofNat 32 j.val).slt (x8 (ix1 r))) = 0#1
    rw [h']; rfl

theorem fold_max_real {J : Type} (s : Finset J) (hs : s.Nonempty) (f : J → EReal)
    (hf : ∀ k, ∃ y : ℝ, f k = (y : EReal)) : ∃ y : ℝ, s.fold max (⊥ : EReal) f = (y : EReal) := by
  have htop : s.fold max (⊥ : EReal) f ≠ ⊤ := by
    refine ne_of_lt ((Finset.fold_max_lt _).2 ⟨bot_lt_top, fun k _ => ?_⟩)
    obtain ⟨y, hy⟩ := hf k; rw [hy]; exact EReal.coe_lt_top y
  have hbot : s.fold max (⊥ : EReal) f ≠ ⊥ := by
    obtain ⟨k, hk⟩ := hs
    refine ne_of_gt ((Finset.lt_fold_max _).2 (Or.inr ⟨k, hk, ?_⟩))
    obtain ⟨y, hy⟩ := hf k; rw [hy]; exact EReal.bot_lt_coe y
  exact ⟨_, (EReal.coe_toReal htop hbot).symm⟩

theorem lift_row (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

theorem rowMax_apply (x : FVec Ideal S4096x4096 .f32) (init : FVec Ideal S_ .f32) (r : Fin 4096) :
    Host.reduce FloatOps.maximumf x init reducesTo_S4096x4096_S4096_d1 h_S_ (ix1 r)
      = (Finset.univ : Finset (Fin 4096)).fold max (init (Shape.Idx.first h_S_)) (fun j => x (ix2 r j)) := by
  have h : S4096x4096.Reduces [1] S4096 := by decide
  rw [Host.reduce_eq_fold_single FloatOps.maximumf x init reducesTo_S4096x4096_S4096_d1 h h_S_]
  have hf : (x ∘ h.lift (ix1 r)) = fun k : Fin 4096 => x (ix2 r k) := funext fun k => congrArg x (lift_row h r k)
  exact congrArg (fun f => Finset.fold max (init (Shape.Idx.first h_S_)) f (Finset.univ : Finset (Fin 4096))) hf

theorem v20_apply (x0 x1 : TA) (x3 x5 : TW) (x8 : TL) (r j : Fin 4096) :
    val_main_v20 (F := Ideal) x0 x1 x3 x5 x8 (ix2 r j)
      = logit (fun r c => proj x1 x5 r c) (fun j c => proj x0 x3 j c) x8 r j := by
  rw [val_main_v20_apply, mask_apply, val_main_v19_apply, val_main_call0_v1_apply, val_main_call0_v0_apply, val_main_cst_apply, ofBits_negBig]
  unfold logit
  have hs : ∑ k : Fin 2048, val_main_v7 (F := Ideal) x1 x5 (lidx_main_v19 (ix2 r j) k) * val_main_v18 (F := Ideal) x0 x3 (ridx_main_v19 (ix2 r j) k)
      = ∑ c : Fin 2048, proj x1 x5 r c * proj x0 x3 j c := by
    refine Finset.sum_congr rfl fun k _ => ?_
    rw [val_main_v18_apply]
    have el : lidx_main_v19 (ix2 r j) k = ix2 r k :=
      funext fun a => Fin.ext (by match a with | ⟨0, _⟩ => rfl | ⟨1, _⟩ => rfl)
    have er : idx_main_v18 (ridx_main_v19 (ix2 r j) k) = ix2 j k :=
      funext fun a => Fin.ext (by match a with | ⟨0, _⟩ => rfl | ⟨1, _⟩ => rfl)
    rw [el, er, v7_apply, v3_apply]
  rw [hs]
  by_cases h : visible x8 r j
  · rw [if_pos h, if_pos h, select_one]
  · rw [if_neg h, if_neg h, select_zero]

def shift_t (x0 x1 : TA) (x3 x5 : TW) (x8 : TL) (r : Fin 4096) : EReal :=
  val_main_v26 (F := Ideal) x0 x1 x3 x5 x8 (ix1 r)

theorem shift_t_eq (x0 x1 : TA) (x3 x5 : TW) (x8 : TL) (r : Fin 4096) :
    shift_t x0 x1 x3 x5 x8 r
      = max ⊥ ((Finset.univ : Finset (Fin 4096)).fold max ⊥
          (fun j => logit (fun r c => proj x1 x5 r c) (fun j c => proj x0 x3 j c) x8 r j)) := by
  unfold shift_t
  rw [val_main_v26_apply, val_main_v25_apply, val_main_cst_2_apply, ofBits_negInf]
  unfold val_main_v24
  refine (congrArg (FloatOps.maximumf (F := Ideal) (φ := .f32) ⊥) (rowMax_apply _ _ r)).trans ?_
  rw [val_main_cst_1_apply, ofBits_negInf]
  have hf : (fun j : Fin 4096 => val_main_v20 (F := Ideal) x0 x1 x3 x5 x8 (ix2 r j))
      = fun j => logit (fun r c => proj x1 x5 r c) (fun j c => proj x0 x3 j c) x8 r j :=
    funext fun j => v20_apply x0 x1 x3 x5 x8 r j
  rw [hf]
  rfl

theorem shift_t_real (x0 x1 : TA) (x3 x5 : TW) (x8 : TL) (r : Fin 4096)
    (h : ∀ j, ∃ y : ℝ, logit (fun r c => proj x1 x5 r c) (fun j c => proj x0 x3 j c) x8 r j = (y : EReal)) :
    ∃ y : ℝ, shift_t x0 x1 x3 x5 x8 r = (y : EReal) := by
  rw [shift_t_eq, max_bot_left]
  exact fold_max_real Finset.univ ⟨r, Finset.mem_univ r⟩ _ h

theorem v30_apply (x0 x1 : TA) (x3 x5 : TW) (x8 : TL) (r j : Fin 4096) :
    val_main_v30 (F := Ideal) x0 x1 x3 x5 x8 (ix2 r j)
      = Ideal.exp (logit (fun r c => proj x1 x5 r c) (fun j c => proj x0 x3 j c) x8 r j - shift_t x0 x1 x3 x5 x8 r) := by
  rw [val_main_v30_apply, val_main_v29_apply, val_main_v28_apply, val_main_v27_apply, v20_apply]
  have e : idx_main_v27 (idx_main_v28 (ix2 r j)) = ix1 r :=
    funext fun a => Fin.ext (by match a with | ⟨0, _⟩ => rfl)
  rw [e]
  rfl

theorem v31_apply (x0 x1 : TA) (x3 x5 : TW) (x8 : TL) (r : Fin 4096) :
    val_main_v31 (F := Ideal) x0 x1 x3 x5 x8 (ix1 r)
      = ∑ j : Fin 4096, Ideal.exp (logit (fun r c => proj x1 x5 r c) (fun j c => proj x0 x3 j c) x8 r j - shift_t x0 x1 x3 x5 x8 r) := by
  rw [val_main_v31_apply, val_main_cst_3_apply, ofBits_zero, zero_add]
  refine Finset.sum_congr rfl fun k _ => ?_
  have e : idx_main_v31 (ix1 r) k = ix2 r k :=
    funext fun a => Fin.ext (by match a with | ⟨0, _⟩ => rfl | ⟨1, _⟩ => rfl)
  rw [e, v30_apply]

theorem v34_apply (x0 x1 : TA) (x3 x5 : TW) (x8 : TL) (r j : Fin 4096) :
    val_main_v34 (F := Ideal) x0 x1 x3 x5 x8 (ix2 r j)
      = Ideal.div (Ideal.exp (logit (fun r c => proj x1 x5 r c) (fun j c => proj x0 x3 j c) x8 r j - shift_t x0 x1 x3 x5 x8 r))
          (∑ j' : Fin 4096, Ideal.exp (logit (fun r c => proj x1 x5 r c) (fun j c => proj x0 x3 j c) x8 r j' - shift_t x0 x1 x3 x5 x8 r)) := by
  rw [val_main_v34_apply, val_main_v33_apply, val_main_v32_apply, v30_apply]
  have e : idx_main_v32 (idx_main_v33 (ix2 r j)) = ix1 r :=
    funext fun a => Fin.ext (by match a with | ⟨0, _⟩ => rfl)
  rw [e, v31_apply]
  rfl

theorem out_t_apply (x0 x1 : TA) (x3 x4 x5 : TW) (x8 : TL) (r : Fin 4096) (d : Fin 2048) :
    val_main_v46 (F := Ideal) x0 x1 x3 x4 x5 x8 (ix2 r d)
      = attn (fun r c => proj x1 x5 r c) (fun j c => proj x0 x3 j c) (fun j d => proj x0 x4 j d) x8
          (shift_t x0 x1 x3 x5 x8) r d := by
  rw [val_main_v46_apply]
  unfold attn
  refine Finset.sum_congr rfl fun k _ => ?_
  have el : lidx_main_v46 (ix2 r d) k = ix2 r k :=
    funext fun a => Fin.ext (by match a with | ⟨0, _⟩ => rfl | ⟨1, _⟩ => rfl)
  have er : ridx_main_v46 (ix2 r d) k = ix2 k d :=
    funext fun a => Fin.ext (by match a with | ⟨0, _⟩ => rfl | ⟨1, _⟩ => rfl)
  rw [el, er, v34_apply, v5_apply]

theorem v23_apply (x0 x1 : TA) (x2 x6 : TW) (x8 : TL) (r j : Fin 4096) :
    val_main_v23 (F := Ideal) x0 x1 x2 x6 x8 (ix2 r j)
      = logit (fun r c => proj x0 x2 r c) (fun j c => proj x1 x6 j c) x8 r j := by
  rw [val_main_v23_apply, mask_apply, val_main_v22_apply, val_main_call1_v1_apply, val_main_call1_v0_apply, val_main_cst_0_apply, ofBits_negBig]
  unfold logit
  have hs : ∑ k : Fin 2048, val_main_v1 (F := Ideal) x0 x2 (lidx_main_v22 (ix2 r j) k) * val_main_v21 (F := Ideal) x1 x6 (ridx_main_v22 (ix2 r j) k)
      = ∑ c : Fin 2048, proj x0 x2 r c * proj x1 x6 j c := by
    refine Finset.sum_congr rfl fun k _ => ?_
    rw [val_main_v21_apply]
    have el : lidx_main_v22 (ix2 r j) k = ix2 r k :=
      funext fun a => Fin.ext (by match a with | ⟨0, _⟩ => rfl | ⟨1, _⟩ => rfl)
    have er : idx_main_v21 (ridx_main_v22 (ix2 r j) k) = ix2 j k :=
      funext fun a => Fin.ext (by match a with | ⟨0, _⟩ => rfl | ⟨1, _⟩ => rfl)
    rw [el, er, v1_apply, v9_apply]
  rw [hs]
  by_cases h : visible x8 r j
  · rw [if_pos h, if_pos h, select_one]
  · rw [if_neg h, if_neg h, select_zero]

def shift_d (x0 x1 : TA) (x2 x6 : TW) (x8 : TL) (r : Fin 4096) : EReal :=
  val_main_v37 (F := Ideal) x0 x1 x2 x6 x8 (ix1 r)

theorem shift_d_eq (x0 x1 : TA) (x2 x6 : TW) (x8 : TL) (r : Fin 4096) :
    shift_d x0 x1 x2 x6 x8 r
      = max ⊥ ((Finset.univ : Finset (Fin 4096)).fold max ⊥
          (fun j => logit (fun r c => proj x0 x2 r c) (fun j c => proj x1 x6 j c) x8 r j)) := by
  unfold shift_d
  rw [val_main_v37_apply, val_main_v36_apply, val_main_cst_5_apply, ofBits_negInf]
  unfold val_main_v35
  refine (congrArg (FloatOps.maximumf (F := Ideal) (φ := .f32) ⊥) (rowMax_apply _ _ r)).trans ?_
  rw [val_main_cst_4_apply, ofBits_negInf]
  have hf : (fun j : Fin 4096 => val_main_v23 (F := Ideal) x0 x1 x2 x6 x8 (ix2 r j))
      = fun j => logit (fun r c => proj x0 x2 r c) (fun j c => proj x1 x6 j c) x8 r j :=
    funext fun j => v23_apply x0 x1 x2 x6 x8 r j
  rw [hf]
  rfl

theorem shift_d_real (x0 x1 : TA) (x2 x6 : TW) (x8 : TL) (r : Fin 4096)
    (h : ∀ j, ∃ y : ℝ, logit (fun r c => proj x0 x2 r c) (fun j c => proj x1 x6 j c) x8 r j = (y : EReal)) :
    ∃ y : ℝ, shift_d x0 x1 x2 x6 x8 r = (y : EReal) := by
  rw [shift_d_eq, max_bot_left]
  exact fold_max_real Finset.univ ⟨r, Finset.mem_univ r⟩ _ h

theorem v41_apply (x0 x1 : TA) (x2 x6 : TW) (x8 : TL) (r j : Fin 4096) :
    val_main_v41 (F := Ideal) x0 x1 x2 x6 x8 (ix2 r j)
      = Ideal.exp (logit (fun r c => proj x0 x2 r c) (fun j c => proj x1 x6 j c) x8 r j - shift_d x0 x1 x2 x6 x8 r) := by
  rw [val_main_v41_apply, val_main_v40_apply, val_main_v39_apply, val_main_v38_apply, v23_apply]
  have e : idx_main_v38 (idx_main_v39 (ix2 r j)) = ix1 r :=
    funext fun a => Fin.ext (by match a with | ⟨0, _⟩ => rfl)
  rw [e]
  rfl

theorem v42_apply (x0 x1 : TA) (x2 x6 : TW) (x8 : TL) (r : Fin 4096) :
    val_main_v42 (F := Ideal) x0 x1 x2 x6 x8 (ix1 r)
      = ∑ j : Fin 4096, Ideal.exp (logit (fun r c => proj x0 x2 r c) (fun j c => proj x1 x6 j c) x8 r j - shift_d x0 x1 x2 x6 x8 r) := by
  rw [val_main_v42_apply, val_main_cst_6_apply, ofBits_zero, zero_add]
  refine Finset.sum_congr rfl fun k _ => ?_
  have e : idx_main_v42 (ix1 r) k = ix2 r k :=
    funext fun a => Fin.ext (by match a with | ⟨0, _⟩ => rfl | ⟨1, _⟩ => rfl)
  rw [e, v41_apply]

theorem v45_apply (x0 x1 : TA) (x2 x6 : TW) (x8 : TL) (r j : Fin 4096) :
    val_main_v45 (F := Ideal) x0 x1 x2 x6 x8 (ix2 r j)
      = Ideal.div (Ideal.exp (logit (fun r c => proj x0 x2 r c) (fun j c => proj x1 x6 j c) x8 r j - shift_d x0 x1 x2 x6 x8 r))
          (∑ j' : Fin 4096, Ideal.exp (logit (fun r c => proj x0 x2 r c) (fun j c => proj x1 x6 j c) x8 r j' - shift_d x0 x1 x2 x6 x8 r)) := by
  rw [val_main_v45_apply, val_main_v44_apply, val_main_v43_apply, v41_apply]
  have e : idx_main_v43 (idx_main_v44 (ix2 r j)) = ix1 r :=
    funext fun a => Fin.ext (by match a with | ⟨0, _⟩ => rfl)
  rw [e, v42_apply]
  rfl

theorem out_d_apply (x0 x1 : TA) (x2 x6 x7 : TW) (x8 : TL) (r : Fin 4096) (d : Fin 2048) :
    val_main_v47 (F := Ideal) x0 x1 x2 x6 x7 x8 (ix2 r d)
      = attn (fun r c => proj x0 x2 r c) (fun j c => proj x1 x6 j c) (fun j d => proj x1 x7 j d) x8
          (shift_d x0 x1 x2 x6 x8) r d := by
  rw [val_main_v47_apply]
  unfold attn
  refine Finset.sum_congr rfl fun k _ => ?_
  have el : lidx_main_v47 (ix2 r d) k = ix2 r k :=
    funext fun a => Fin.ext (by match a with | ⟨0, _⟩ => rfl | ⟨1, _⟩ => rfl)
  have er : ridx_main_v47 (ix2 r d) k = ix2 k d :=
    funext fun a => Fin.ext (by match a with | ⟨0, _⟩ => rfl | ⟨1, _⟩ => rfl)
  rw [el, er, v45_apply, v11_apply]

theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v46)
        = val_main_v46 (F := Ideal) (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg8))
      ∧ r.2.mem ((c.tc : Thread nD τ).loc main_v47)
        = val_main_v47 (F := Ideal) (m ((c.tc : Thread nD τ).loc main_arg0)) (m ((c.tc : Thread nD τ).loc main_arg1))
            (m ((c.tc : Thread nD τ).loc main_arg2)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.ReferenceIdeal.defs (F := Ideal)) _ _).mono
    (fun _ h c => ⟨(h c).1.trans (val_main_v46_eq m c), (h c).2.1.trans (val_main_v47_eq m c), (h c).2.2⟩)
    (Cert.ReferenceIdeal.Value.run (F := Ideal) m ρ)

end Cert.ReferenceIdeal.RefValue

end
-- ==== Proof.Bridge.lean ====
import proofs.«404947_j13649406066966_2_alg».proof.Defs
import proofs.«404947_j13649406066966_2_alg».proof.Proof.KI.Carry
import proofs.«404947_j13649406066966_2_alg».proof.Proof.KI.FlashValue2
import proofs.«404947_j13649406066966_2_alg».proof.Proof.KI.FlashValue3
import proofs.«404947_j13649406066966_2_alg».proof.Proof.RefValue
import proofs.«404947_j13649406066966_2_alg».proof.Proof.Finite

set_option maxRecDepth 16384

noncomputable section

namespace Cert.Proof.Bridge

open Cert.KernelIdeal Cert.KernelIdeal.Gen Cert.KernelIdeal.Hand Cert.Spec
open Idealize.ShloMosaic Idealize.ShloMosaic.TcCoe Idealize.SL.Sem Idealize.ShloMosaic.ValueIdx

variable (m : (ℓ : Loc nD τ sig) → Buf (Elt Ideal) ℓ) (ρ : Dev nD → PrngReg)

theorem q2 (c : Dev nD) (R : Fin 4096) (cc : Fin 2048) :
    @Eq EReal (V4 (F := Ideal) m ρ c (Pipeline.arrRef spec2 0) (ix2 R cc)) (proj (m ((c : Thread nD τ).loc main_arg1)) (m ((c : Thread nD τ).loc main_arg5)) R cc) :=
  (congrFun (W4_keeps m ρ c main_v15_0 (by decide)) (ix2 R cc)).trans (W3_main_v15_0_apply m ρ c R cc)
theorem k2 (c : Dev nD) (R : Fin 4096) (cc : Fin 2048) :
    @Eq EReal (V4 (F := Ideal) m ρ c (Pipeline.arrRef spec2 1) (ix2 R cc)) (proj (m ((c : Thread nD τ).loc main_arg0)) (m ((c : Thread nD τ).loc main_arg3)) R cc) :=
  (congrFun (W4_keeps m ρ c main_v14_1 (by decide)) (ix2 R cc)).trans
    ((congrFun (W3_keeps m ρ c main_v14_1 (by decide)) (ix2 R cc)).trans (W2_main_v14_1_apply m ρ c R cc))
theorem v2 (c : Dev nD) (R : Fin 4096) (d : Fin 2048) :
    @Eq EReal (V4 (F := Ideal) m ρ c (Pipeline.arrRef spec2 2) (ix2 R d)) (proj (m ((c : Thread nD τ).loc main_arg0)) (m ((c : Thread nD τ).loc main_arg4)) R d) :=
  (congrFun (W4_keeps m ρ c main_v14_2 (by decide)) (ix2 R d)).trans
    ((congrFun (W3_keeps m ρ c main_v14_2 (by decide)) (ix2 R d)).trans (W2_main_v14_2_apply m ρ c R d))
theorem l2 (c : Dev nD) (R : Fin 4096) :
    @Eq (BitVec 32) (V4 (F := Ideal) m ρ c (Pipeline.arrRef spec2 3) (ix2 R (0 : Fin 1))) ((m ((c : Thread nD τ).loc main_arg8)) (ix1 R)) :=
  W4_main_v16_apply m ρ c R

theorem q3 (c : Dev nD) (R : Fin 4096) (cc : Fin 2048) :
    @Eq EReal (V5 (F := Ideal) m ρ c (Pipeline.arrRef spec3 0) (ix2 R cc)) (proj (m ((c : Thread nD τ).loc main_arg0)) (m ((c : Thread nD τ).loc main_arg2)) R cc) :=
  (congrFun (W5_of_ne m ρ c main_v14_0 (by decide)) (ix2 R cc)).trans
    ((congrFun (W4_keeps m ρ c main_v14_0 (by decide)) (ix2 R cc)).trans
      ((congrFun (W3_keeps m ρ c main_v14_0 (by decide)) (ix2 R cc)).trans (W2_main_v14_0_apply m ρ c R cc)))
theorem k3 (c : Dev nD) (R : Fin 4096) (cc : Fin 2048) :
    @Eq EReal (V5 (F := Ideal) m ρ c (Pipeline.arrRef spec3 1) (ix2 R cc)) (proj (m ((c : Thread nD τ).loc main_arg1)) (m ((c : Thread nD τ).loc main_arg6)) R cc) :=
  (congrFun (W5_of_ne m ρ c main_v15_1 (by decide)) (ix2 R cc)).trans
    ((congrFun (W4_keeps m ρ c main_v15_1 (by decide)) (ix2 R cc)).trans (W3_main_v15_1_apply m ρ c R cc))
theorem v3 (c : Dev nD) (R : Fin 4096) (d : Fin 2048) :
    @Eq EReal (V5 (F := Ideal) m ρ c (Pipeline.arrRef spec3 2) (ix2 R d)) (proj (m ((c : Thread nD τ).loc main_arg1)) (m ((c : Thread nD τ).loc main_arg7)) R d) :=
  (congrFun (W5_of_ne m ρ c main_v15_2 (by decide)) (ix2 R d)).trans
    ((congrFun (W4_keeps m ρ c main_v15_2 (by decide)) (ix2 R d)).trans (W3_main_v15_2_apply m ρ c R d))

theorem l3 (c : Dev nD) (R : Fin 4096) :
    @Eq (BitVec 32) (V5 (F := Ideal) m ρ c (Pipeline.arrRef spec3 3) (ix2 R (0 : Fin 1))) ((m ((c : Thread nD τ).loc main_arg8)) (ix1 R)) := by
  have e : W5 (F := Ideal) m ρ c (Proc.devRef .tc main_v16) = W4 (F := Ideal) m ρ c (Proc.devRef .tc main_v16) :=
    (W5_arr m ρ c 3).trans (((dat2 (F := Ideal) (V4 m ρ) c).arrAt_in 3 rfl _).trans (A_eq2 (V4 m ρ) c 3))
  exact (congrFun e (ix2 R (0 : Fin 1))).trans (W4_main_v16_apply m ρ c R)

open Cert.ReferenceIdeal.RefValue Cert.ReferenceIdeal.Read in

theorem out_t_apply [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (fun _ => 1#1))
    (R : Fin 4096) (d : Fin 2048) :
    @Eq EReal ((dat2 (F := Ideal) (V4 m ρ) c).arrAt 4 cfg2.N (ix2 R d))
      (val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (ix2 R d)) := by
  obtain ⟨h0, h1, h2, h3, h4, h5, h6, h7⟩ := Cert.Finite.real_of_pre _ _ _ _ _ _ _ _ _ hpre
  have hq : ∀ R cc, ∃ y : ℝ, proj (m ((c : Thread nD τ).loc main_arg1)) (m ((c : Thread nD τ).loc main_arg5)) R cc = (y : EReal) := fun R cc => Cert.Finite.proj_real _ _ h1 h5 R cc
  have hk : ∀ R cc, ∃ y : ℝ, proj (m ((c : Thread nD τ).loc main_arg0)) (m ((c : Thread nD τ).loc main_arg3)) R cc = (y : EReal) := fun R cc => Cert.Finite.proj_real _ _ h0 h3 R cc
  have hv : ∀ R d, ∃ y : ℝ, proj (m ((c : Thread nD τ).loc main_arg0)) (m ((c : Thread nD τ).loc main_arg4)) R d = (y : EReal) := fun R d => Cert.Finite.proj_real _ _ h0 h4 R d
  obtain ⟨sh, hsh⟩ := flash2_value (V4 m ρ) c (fun R cc => proj (m ((c : Thread nD τ).loc main_arg1)) (m ((c : Thread nD τ).loc main_arg5)) R cc) (fun j cc => proj (m ((c : Thread nD τ).loc main_arg0)) (m ((c : Thread nD τ).loc main_arg3)) j cc) (fun j d => proj (m ((c : Thread nD τ).loc main_arg0)) (m ((c : Thread nD τ).loc main_arg4)) j d) (m ((c : Thread nD τ).loc main_arg8))
    (q2 m ρ c) (k2 m ρ c) (v2 m ρ c) (l2 m ρ c) hq hk hv R d
  have hl : ∀ j, ∃ y : ℝ, logit (fun R cc => proj (m ((c : Thread nD τ).loc main_arg1)) (m ((c : Thread nD τ).loc main_arg5)) R cc) (fun j cc => proj (m ((c : Thread nD τ).loc main_arg0)) (m ((c : Thread nD τ).loc main_arg3)) j cc) (m ((c : Thread nD τ).loc main_arg8)) R j = (y : EReal) :=
    fun j => Cert.Finite.logit_real _ _ _ hq hk R j
  rw [hsh, Cert.ReferenceIdeal.RefValue.out_t_apply]
  exact Cert.Finite.attnAcc_eq_attn _ _ _ _ _ _ R d hl (fun j => hv j d) ⟨sh, rfl⟩ (shift_t_real _ _ _ _ _ R hl)

open Cert.ReferenceIdeal.RefValue Cert.ReferenceIdeal.Read in

theorem out_d_apply [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (fun _ => 1#1))
    (R : Fin 4096) (d : Fin 2048) :
    @Eq EReal ((dat3 (F := Ideal) (V5 m ρ) c).arrAt 4 cfg3.N (ix2 R d))
      (val_main_v47 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (ix2 R d)) := by
  obtain ⟨h0, h1, h2, h3, h4, h5, h6, h7⟩ := Cert.Finite.real_of_pre _ _ _ _ _ _ _ _ _ hpre
  have hq : ∀ R cc, ∃ y : ℝ, proj (m ((c : Thread nD τ).loc main_arg0)) (m ((c : Thread nD τ).loc main_arg2)) R cc = (y : EReal) := fun R cc => Cert.Finite.proj_real _ _ h0 h2 R cc
  have hk : ∀ R cc, ∃ y : ℝ, proj (m ((c : Thread nD τ).loc main_arg1)) (m ((c : Thread nD τ).loc main_arg6)) R cc = (y : EReal) := fun R cc => Cert.Finite.proj_real _ _ h1 h6 R cc
  have hv : ∀ R d, ∃ y : ℝ, proj (m ((c : Thread nD τ).loc main_arg1)) (m ((c : Thread nD τ).loc main_arg7)) R d = (y : EReal) := fun R d => Cert.Finite.proj_real _ _ h1 h7 R d
  obtain ⟨sh, hsh⟩ := flash3_value (V5 m ρ) c (fun R cc => proj (m ((c : Thread nD τ).loc main_arg0)) (m ((c : Thread nD τ).loc main_arg2)) R cc) (fun j cc => proj (m ((c : Thread nD τ).loc main_arg1)) (m ((c : Thread nD τ).loc main_arg6)) j cc) (fun j d => proj (m ((c : Thread nD τ).loc main_arg1)) (m ((c : Thread nD τ).loc main_arg7)) j d) (m ((c : Thread nD τ).loc main_arg8))
    (q3 m ρ c) (k3 m ρ c) (v3 m ρ c) (l3 m ρ c) hq hk hv R d
  have hl : ∀ j, ∃ y : ℝ, logit (fun R cc => proj (m ((c : Thread nD τ).loc main_arg0)) (m ((c : Thread nD τ).loc main_arg2)) R cc) (fun j cc => proj (m ((c : Thread nD τ).loc main_arg1)) (m ((c : Thread nD τ).loc main_arg6)) j cc) (m ((c : Thread nD τ).loc main_arg8)) R j = (y : EReal) :=
    fun j => Cert.Finite.logit_real _ _ _ hq hk R j
  rw [hsh, Cert.ReferenceIdeal.RefValue.out_d_apply]
  exact Cert.Finite.attnAcc_eq_attn _ _ _ _ _ _ R d hl (fun j => hv j d) ⟨sh, rfl⟩ (shift_d_real _ _ _ _ _ R hl)

end Cert.Proof.Bridge

end
-- ==== Proof.lean ====
import proofs.«404947_j13649406066966_2_alg».proof.Defs
import proofs.«404947_j13649406066966_2_alg».proof.Proof.Gen.Kernel
import proofs.«404947_j13649406066966_2_alg».proof.Proof.Gen.KernelIdeal
import proofs.«404947_j13649406066966_2_alg».proof.Proof.Gen.ReferenceIdeal
import proofs.«404947_j13649406066966_2_alg».proof.Proof.Gen.Pre_finite_inputs
import proofs.«404947_j13649406066966_2_alg».proof.Proof.KI.MainRun
import proofs.«404947_j13649406066966_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

-- The run names both results and every argument; without the two result equations it is the frame.
theorem frame_ki : Cert.frame_KernelIdeal := fun m ρ _ =>
  (θ_run Cert.KernelIdeal.defs _ _).mono (fun _ h c => (h c).2.2) (Cert.KernelIdeal.Hand.run_results (F := Ideal) m ρ)

-- The idealization rewrote no operation: the two printed programs are, definition by definition, one term, and the run
-- was proved for it at every float instance. So the first program's frame is that same run at the other instance.
set_option maxHeartbeats 1000000 in
set_option smartUnfolding false in
theorem frame_k : Cert.frame_Kernel := fun m ρ _ =>
  (θ_run Cert.KernelIdeal.defs _ _).mono (fun _ h c => (h c).2.2) (Cert.KernelIdeal.Hand.run_results (F := Bits) m ρ)

theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

-- The results are the two attention launches' output arrays, which hold the reference's values entry by entry.
theorem algebraic : Cert.algebraic_KernelIdeal_ReferenceIdeal := by
  intro m ρ m' ρ' hpre hagree
  refine ⟨fun c => (Cert.KernelIdeal.Hand.dat2 (F := Ideal) (Cert.KernelIdeal.Hand.V4 m ρ) c).arrAt 4 Cert.KernelIdeal.cfg2.N,
    fun c => (Cert.KernelIdeal.Hand.dat3 (F := Ideal) (Cert.KernelIdeal.Hand.V5 m ρ) c).arrAt 4 Cert.KernelIdeal.cfg3.N,
    Cert.KernelIdeal.Hand.run_results (F := Ideal) m ρ, ?_⟩
  refine (θ_run Cert.ReferenceIdeal.defs _ _).mono (fun r h c => ?_) (Cert.ReferenceIdeal.RefValue.run m' ρ')
  obtain ⟨h46, h47, hargs⟩ := h c
  obtain ⟨e0, e1, e2, e3, e4, e5, e6, e7, e8⟩ := hagree c
  refine ⟨h46.trans ?_, h47.trans ?_, hargs⟩
  · rw [e0, e1, e3, e4, e5, e8]
    funext i
    obtain ⟨R, d, rfl⟩ : ∃ (R : Fin 4096) (d : Fin 2048), i = ix2 R d := ⟨i 0, i 1, eq_ix2 i⟩
    exact (Cert.Proof.Bridge.out_t_apply m ρ c (hpre c) R d).symm
  · rw [e0, e1, e2, e6, e7, e8]
    funext i
    obtain ⟨R, d, rfl⟩ : ∃ (R : Fin 4096) (d : Fin 2048), i = ix2 R d := ⟨i 0, i 1, eq_ix2 i⟩
    exact (Cert.Proof.Bridge.out_d_apply m ρ c (hpre c) R d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
